-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1x160x160x160 : Shape := ⟨5, ![2, 1, 160, 160, 160]⟩
abbrev S_ : Shape := ⟨0, ![]⟩

class Facts : Prop where
  bcast_S_S2x1x160x160x160 : S_.BroadcastsInDim S2x1x160x160x160 (![] : Fin 0 → Fin S2x1x160x160x160.rank)
  reducesTo_S2x1x160x160x160_S_d0_1_2_3_4 : S2x1x160x160x160.ReducesTo [0, 1, 2, 3, 4] S_
  h_S_ : 0 < S_.numel

variable [Facts]

def fn {F : FTy → Type} [FloatOps F] (main_arg0 : FVec F S2x1x160x160x160 .f32) (main_arg1 : FVec F S2x1x160x160x160 .f32) : IVec S_ 1 :=
  let main_v0 : FVec F S2x1x160x160x160 .f32 := Host.absf main_arg0
  let main_cst : FVec F S_ .f32 := constant S_ .f32 0x7F800000#32
  let main_v1 : FVec F S2x1x160x160x160 .f32 := broadcastInDim S2x1x160x160x160 ![] bcast_S_S2x1x160x160x160 main_cst
  let main_v2 : IVec S2x1x160x160x160 1 := cmpf .olt main_v0 main_v1
  let main_c : IVec S_ 1 := constantI S_ 1 1#1
  let main_v3 : IVec S_ 1 := (fun x v => Host.reduce IntOp.andi x v reducesTo_S2x1x160x160x160_S_d0_1_2_3_4 h_S_) main_v2 main_c
  let main_v4 : FVec F S2x1x160x160x160 .f32 := Host.absf main_arg1
  let main_cst_0 : FVec F S_ .f32 := constant S_ .f32 0x7F800000#32
  let main_v5 : FVec F S2x1x160x160x160 .f32 := broadcastInDim S2x1x160x160x160 ![] bcast_S_S2x1x160x160x160 main_cst_0
  let main_v6 : IVec S2x1x160x160x160 1 := cmpf .olt main_v4 main_v5
  let main_c_1 : IVec S_ 1 := constantI S_ 1 1#1
  let main_v7 : IVec S_ 1 := (fun x v => Host.reduce IntOp.andi x v reducesTo_S2x1x160x160x160_S_d0_1_2_3_4 h_S_) main_v6 main_c_1
  let main_v8 : IVec S_ 1 := andi main_v3 main_v7
  main_v8
-- ==== Kernel.lean ====
abbrev S2x1x160x160x160 : Shape := ⟨5, ![2, 1, 160, 160, 160]⟩
abbrev S2x1x6 : Shape := ⟨3, ![2, 1, 6]⟩
abbrev S1x1x32x160x160 : Shape := ⟨5, ![1, 1, 32, 160, 160]⟩
abbrev S1x1x1x160x160 : Shape := ⟨5, ![1, 1, 1, 160, 160]⟩
abbrev S1x1x6 : Shape := ⟨3, ![1, 1, 6]⟩
abbrev S1x1 : Shape := ⟨2, ![1, 1]⟩
abbrev S160x160 : Shape := ⟨2, ![160, 160]⟩
abbrev S32x160x160 : Shape := ⟨3, ![32, 160, 160]⟩
abbrev S31x160x160 : Shape := ⟨3, ![31, 160, 160]⟩
abbrev S31x160 : Shape := ⟨2, ![31, 160]⟩
abbrev S1x31x160 : Shape := ⟨3, ![1, 31, 160]⟩
abbrev S1 : Shape := ⟨1, ![1]⟩
abbrev S1x1x1 : Shape := ⟨3, ![1, 1, 1]⟩
abbrev S1x160x160 : Shape := ⟨3, ![1, 160, 160]⟩
abbrev S160 : Shape := ⟨1, ![160]⟩
abbrev S1x160 : Shape := ⟨2, ![1, 160]⟩
abbrev S32x159x160 : Shape := ⟨3, ![32, 159, 160]⟩
abbrev S32x1x160 : Shape := ⟨3, ![32, 1, 160]⟩
abbrev S32x160 : Shape := ⟨2, ![32, 160]⟩
abbrev S1x32x160 : Shape := ⟨3, ![1, 32, 160]⟩
abbrev S32x160x159 : Shape := ⟨3, ![32, 160, 159]⟩
abbrev S32x160x1 : Shape := ⟨3, ![32, 160, 1]⟩
abbrev S1x6 : Shape := ⟨2, ![1, 6]⟩
abbrev S2x6 : Shape := ⟨2, ![2, 6]⟩
abbrev S_ : Shape := ⟨0, ![]⟩
abbrev S6 : Shape := ⟨1, ![6]⟩

abbrev nBuf : Space → Nat
  | .hbm => 40
  | .vmem => 22
  | .smem => 0
  | _ => 0

abbrev bufTy : (tb : Table) → Fin (tcTables nBuf tb) → BufTy
  | .hbm, ⟨0, _⟩ => ⟨S2x1x160x160x160, .f32⟩
  | .hbm, ⟨1, _⟩ => ⟨S2x1x160x160x160, .f32⟩
  | .hbm, ⟨2, _⟩ => ⟨S2x1x6, .f32⟩
  | .hbm, ⟨3, _⟩ => ⟨S2x6, .f32⟩
  | .hbm, ⟨4, _⟩ => ⟨S_, .f32⟩
  | .hbm, ⟨5, _⟩ => ⟨S6, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S1x1x32x160x160, .f32⟩
  | .local _ .vmem, ⟨1, _⟩ => ⟨S1x1x32x160x160, .f32⟩
  | .local _ .vmem, ⟨2, _⟩ => ⟨S1x1x32x160x160, .f32⟩
  | .local _ .vmem, ⟨3, _⟩ => ⟨S1x1x32x160x160, .f32⟩
  | .local _ .vmem, ⟨4, _⟩ => ⟨S1x1x1x160x160, .f32⟩
  | .local _ .vmem, ⟨5, _⟩ => ⟨S1x1x1x160x160, .f32⟩
  | .local _ .vmem, ⟨6, _⟩ => ⟨S1x1x1x160x160, .f32⟩
  | .local _ .vmem, ⟨7, _⟩ => ⟨S1x1x1x160x160, .f32⟩
  | .local _ .vmem, ⟨8, _⟩ => ⟨S1x1x6, .f32⟩
  | .local _ .vmem, ⟨9, _⟩ => ⟨S1x1x6, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | .local _ .vmem, ⟨16, _⟩ => ⟨S160x160, .f32⟩
  | .local _ .vmem, ⟨17, _⟩ => ⟨S160x160, .f32⟩
  | .local _ .vmem, ⟨18, _⟩ => ⟨S160x160, .f32⟩
  | .local _ .vmem, ⟨19, _⟩ => ⟨S160x160, .f32⟩
  | .local _ .vmem, ⟨20, _⟩ => ⟨S160x160, .f32⟩
  | .local _ .vmem, ⟨21, _⟩ => ⟨S160x160, .f32⟩
  | _, _ => ⟨S2x1x160x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v1 : BitVec 1 := Scalar.cmpi .eq arg1 c4_i32
  let v215 : BitVec 32 := Scalar.extui v1
  let c0_i32_106 : BitVec 32 := 0#32
  let v216 : BitVec 1 := Scalar.cmpi .ne v215 c0_i32_106
  v216

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c159_i32 : BitVec 32 := 159#32
  let v2 : BitVec 32 := Scalar.minsi v1 c159_i32
  let c0_i32 : BitVec 32 := 0#32
  let c0_i32_0 : BitVec 32 := 0#32
  let c0_i32_1 : BitVec 32 := 0#32
  let c0_i32_2 : BitVec 32 := 0#32
  ![arg0.toNat, c0_i32.toNat, v2.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c159_i32 : BitVec 32 := 159#32
  let v2 : BitVec 32 := Scalar.minsi v1 c159_i32
  let c0_i32 : BitVec 32 := 0#32
  let c0_i32_0 : BitVec 32 := 0#32
  let c0_i32_1 : BitVec 32 := 0#32
  let c0_i32_2 : BitVec 32 := 0#32
  ![arg0.toNat, c0_i32.toNat, v2.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x32x160x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32x160x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x160x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x160x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S160x160_S160x160_0_0 : ∀ a, (![0, 0] : Fin 2 → Nat) a + S160x160.size a ≤ S160x160.size a
  h_S160x160 : 0 < S160x160.numel
  shapeCasts_S160x160_S160x160 : S160x160.ShapeCasts S160x160
  inb_S1x1x32x160x160_S1x1x32x160x160_0_0_0_0_0 : ∀ a, (![0, 0, 0, 0, 0] : Fin 5 → Nat) a + S1x1x32x160x160.size a ≤ S1x1x32x160x160.size a
  h_S1x1x32x160x160 : 0 < S1x1x32x160x160.numel
  shapeCasts_S1x1x32x160x160_S32x160x160 : S1x1x32x160x160.ShapeCasts S32x160x160
  inb_S1x1x1x160x160_S1x1x1x160x160_0_0_0_0_0 : ∀ a, (![0, 0, 0, 0, 0] : Fin 5 → Nat) a + S1x1x1x160x160.size a ≤ S1x1x1x160x160.size a
  h_S1x1x1x160x160 : 0 < S1x1x1x160x160.numel
  shapeCasts_S1x1x1x160x160_S160x160 : S1x1x1x160x160.ShapeCasts S160x160
  slices_S32x160x160_o1_0_0_S31x160x160 : S32x160x160.Slices ![1, 0, 0] S31x160x160
  slices_S32x160x160_o0_0_0_S31x160x160 : S32x160x160.Slices ![0, 0, 0] S31x160x160
  reduces_S31x160x160_S31x160 : S31x160x160.Reduces [2] S31x160
  shapeCasts_S31x160_S1x31x160 : S31x160.ShapeCasts S1x31x160
  reduces_S1x31x160_S1 : S1x31x160.Reduces [1, 2] S1
  shapeCasts_S1_S1x1x1 : S1.ShapeCasts S1x1x1
  inpos_S1x1x1_p0_0_0 : ∀ a, (![0, 0, 0] : Fin 3 → Nat) a < S1x1x1.size a
  reduces_S31x160x160_S31x160_2 : S31x160x160.Reduces [1] S31x160
  slices_S32x160x160_o31_0_0_S1x160x160 : S32x160x160.Slices ![31, 0, 0] S1x160x160
  shapeCasts_S1x160x160_S160x160 : S1x160x160.ShapeCasts S160x160
  reduces_S160x160_S160 : S160x160.Reduces [1] S160
  shapeCasts_S160_S1x160 : S160.ShapeCasts S1x160
  reduces_S1x160_S1 : S1x160.Reduces [1] S1
  shapeCasts_S1_S1x1 : S1.ShapeCasts S1x1
  inpos_S1x1_p0_0 : ∀ a, (![0, 0] : Fin 2 → Nat) a < S1x1.size a
  reduces_S160x160_S160_2 : S160x160.Reduces [0] S160
  slices_S32x160x160_o0_1_0_S32x159x160 : S32x160x160.Slices ![0, 1, 0] S32x159x160
  slices_S32x160x160_o0_0_0_S32x159x160 : S32x160x160.Slices ![0, 0, 0] S32x159x160
  concatenates_S32x159x160_S32x1x160_S32x160x160_d1 : Shape.Concatenates [S32x159x160, S32x1x160] S32x160x160 1
  reduces_S32x160x160_S32x160 : S32x160x160.Reduces [2] S32x160
  shapeCasts_S32x160_S1x32x160 : S32x160.ShapeCasts S1x32x160
  reduces_S1x32x160_S1 : S1x32x160.Reduces [1, 2] S1
  reduces_S32x160x160_S160x160 : S32x160x160.Reduces [0] S160x160
  slices_S32x160x160_o0_0_1_S32x160x159 : S32x160x160.Slices ![0, 0, 1] S32x160x159
  slices_S32x160x160_o0_0_0_S32x160x159 : S32x160x160.Slices ![0, 0, 0] S32x160x159
  concatenates_S32x160x159_S32x160x1_S32x160x160_d2 : Shape.Concatenates [S32x160x159, S32x160x1] S32x160x160 2
  reduces_S32x160x160_S32x160_2 : S32x160x160.Reduces [1] S32x160
  shapeCasts_S160x160_S1x160x160 : S160x160.ShapeCasts S1x160x160
  reduces_S1x160x160_S1 : S1x160x160.Reduces [1, 2] S1
  concatenates_S1x1_S1x1_S1x1_S1x1_S1x1_S1x1_S1x6_d1 : Shape.Concatenates [S1x1, S1x1, S1x1, S1x1, S1x1, S1x1] S1x6 1
  inb_S1x1x6_S1x1x6_0_0_0 : ∀ a, (![0, 0, 0] : Fin 3 → Nat) a + S1x1x6.size a ≤ S1x1x6.size a
  h_S1x1x6 : 0 < S1x1x6.numel
  shapeCasts_S1x1x6_S1x6 : S1x1x6.ShapeCasts S1x6
  shapeCasts_S1x6_S1x1x6 : S1x6.ShapeCasts S1x1x6
  shapeCasts_S2x1x6_S2x6 : S2x1x6.ShapeCasts S2x6
  reducesTo_S2x6_S6_d0 : S2x6.ReducesTo [0] S6
  h_S_ : 0 < S_.numel
  slices_S6_S1_0 : S6.Slices ![0] S1
  shapeCasts_S1_S_ : S1.ShapeCasts S_
  slices_S6_S1_1 : S6.Slices ![1] S1
  slices_S6_S1_2 : S6.Slices ![2] S1
  slices_S6_S1_3 : S6.Slices ![3] S1
  slices_S6_S1_4 : S6.Slices ![4] S1
  slices_S6_S1_5 : S6.Slices ![5] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32x160x160.size a ≤ S2x1x160x160x160.size a
  hwx0_0 : ∀ i : grid0.Coords, EltTy.bits .f32 = 32 ∨ (Rect.block (s := S2x1x160x160x160) S1x1x32x160x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32x160x160.size a ≤ S2x1x160x160x160.size a
  hwx0_1 : ∀ i : grid0.Coords, EltTy.bits .f32 = 32 ∨ (Rect.block (s := S2x1x160x160x160) S1x1x32x160x160.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x160x160.size a ≤ S2x1x160x160x160.size a
  hwx0_2 : ∀ i : grid0.Coords, EltTy.bits .f32 = 32 ∨ (Rect.block (s := S2x1x160x160x160) S1x1x1x160x160.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x160x160.size a ≤ S2x1x160x160x160.size a
  hwx0_3 : ∀ i : grid0.Coords, EltTy.bits .f32 = 32 ∨ (Rect.block (s := S2x1x160x160x160) S1x1x1x160x160.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x6.size a ≤ S2x1x6.size a
  hwx0_4 : ∀ i : grid0.Coords, EltTy.bits .f32 = 32 ∨ (Rect.block (s := S2x1x6) S1x1x6.size (cc0_transform_4 i) (hinb0_4 i)).WholeWords (EltTy.packing .f32)

variable [Facts₀]

abbrev win0_0 : Pipeline.Window sig grid0 :=
  Pipeline.Window.ofSpec (Memref.whole main_arg0) S1x1x32x160x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x32x160x160.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x1x160x160.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1x1x160x160.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x6.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x1x160x160x160 : Shape := ⟨5, ![2, 1, 160, 160, 160]⟩
abbrev S2x1x159x160x160 : Shape := ⟨5, ![2, 1, 159, 160, 160]⟩
abbrev S_ : Shape := ⟨0, ![]⟩
abbrev S2x1x160x159x160 : Shape := ⟨5, ![2, 1, 160, 159, 160]⟩
abbrev S2x1x160x160x159 : Shape := ⟨5, ![2, 1, 160, 160, 159]⟩
abbrev S2x1x160x160 : Shape := ⟨4, ![2, 1, 160, 160]⟩
abbrev S2x1x160x160x1 : Shape := ⟨5, ![2, 1, 160, 160, 1]⟩
abbrev S2x1x160x1x160 : Shape := ⟨5, ![2, 1, 160, 1, 160]⟩
abbrev S2x1x1x160x160 : Shape := ⟨5, ![2, 1, 1, 160, 160]⟩

abbrev nBuf : Space → Nat
  | .hbm => 210
  | .vmem => 0
  | .smem => 0
  | _ => 0

abbrev hbmTy0_0 (i : Nat) : BufTy := match i % 128 with
  | 0 => ⟨S2x1x160x160x160, .f32⟩
  | 1 => ⟨S2x1x160x160x160, .f32⟩
  | 2 => ⟨S2x1x159x160x160, .f32⟩
  | 3 => ⟨S2x1x159x160x160, .f32⟩
  | 4 => ⟨S2x1x159x160x160, .f32⟩
  | 5 => ⟨S_, .i32⟩
  | 6 => ⟨S_, .f32⟩
  | 7 => ⟨S2x1x160x160x160, .f32⟩
  | 8 => ⟨S2x1x160x159x160, .f32⟩
  | 9 => ⟨S2x1x160x159x160, .f32⟩
  | 10 => ⟨S2x1x160x159x160, .f32⟩
  | 11 => ⟨S_, .i32⟩
  | 12 => ⟨S_, .f32⟩
  | 13 => ⟨S2x1x160x160x160, .f32⟩
  | 14 => ⟨S2x1x160x160x159, .f32⟩
  | 15 => ⟨S2x1x160x160x159, .f32⟩
  | 16 => ⟨S2x1x160x160x159, .f32⟩
  | 17 => ⟨S_, .i32⟩
  | 18 => ⟨S_, .f32⟩
  | 19 => ⟨S2x1x160x160x160, .f32⟩
  | 20 => ⟨S2x1x159x160x160, .f32⟩
  | 21 => ⟨S2x1x159x160x160, .f32⟩
  | 22 => ⟨S2x1x159x160x160, .f32⟩
  | 23 => ⟨S_, .i32⟩
  | 24 => ⟨S_, .f32⟩
  | 25 => ⟨S2x1x160x160x160, .f32⟩
  | 26 => ⟨S2x1x160x159x160, .f32⟩
  | 27 => ⟨S2x1x160x159x160, .f32⟩
  | 28 => ⟨S2x1x160x159x160, .f32⟩
  | 29 => ⟨S_, .i32⟩
  | 30 => ⟨S_, .f32⟩
  | 31 => ⟨S2x1x160x160x160, .f32⟩
  | 32 => ⟨S2x1x160x160x159, .f32⟩
  | 33 => ⟨S2x1x160x160x159, .f32⟩
  | 34 => ⟨S2x1x160x160x159, .f32⟩
  | 35 => ⟨S_, .i32⟩
  | 36 => ⟨S_, .f32⟩
  | 37 => ⟨S2x1x160x160x160, .f32⟩
  | 38 => ⟨S2x1x160x160x160, .f32⟩
  | 39 => ⟨S_, .f32⟩
  | 40 => ⟨S2x1x160x160, .f32⟩
  | 41 => ⟨S2x1x160x160x1, .f32⟩
  | 42 => ⟨S2x1x160x160x1, .f32⟩
  | 43 => ⟨S_, .f32⟩
  | 44 => ⟨S2x1x160x160x1, .f32⟩
  | 45 => ⟨S2x1x160x160x1, .f32⟩
  | 46 => ⟨S2x1x160x160x160, .f32⟩
  | 47 => ⟨S2x1x160x160x160, .f32⟩
  | 48 => ⟨S2x1x160x160x160, .f32⟩
  | 49 => ⟨S_, .f32⟩
  | 50 => ⟨S2x1x160x160, .f32⟩
  | 51 => ⟨S2x1x160x160x1, .f32⟩
  | 52 => ⟨S2x1x160x160x1, .f32⟩
  | 53 => ⟨S_, .f32⟩
  | 54 => ⟨S2x1x160x160x1, .f32⟩
  | 55 => ⟨S2x1x160x160x1, .f32⟩
  | 56 => ⟨S2x1x160x160x160, .f32⟩
  | 57 => ⟨S2x1x160x160x160, .f32⟩
  | 58 => ⟨S2x1x160x160x160, .f32⟩
  | 59 => ⟨S_, .f32⟩
  | 60 => ⟨S2x1x160x160, .f32⟩
  | 61 => ⟨S_, .f32⟩
  | 62 => ⟨S_, .f32⟩
  | 63 => ⟨S_, .f32⟩
  | 64 => ⟨S_, .f32⟩
  | 65 => ⟨S2x1x160x160x160, .f32⟩
  | 66 => ⟨S_, .f32⟩
  | 67 => ⟨S2x1x160x160, .f32⟩
  | 68 => ⟨S2x1x160x1x160, .f32⟩
  | 69 => ⟨S2x1x160x1x160, .f32⟩
  | 70 => ⟨S_, .f32⟩
  | 71 => ⟨S2x1x160x1x160, .f32⟩
  | 72 => ⟨S2x1x160x1x160, .f32⟩
  | 73 => ⟨S2x1x160x160x160, .f32⟩
  | 74 => ⟨S2x1x160x160x160, .f32⟩
  | 75 => ⟨S2x1x160x160x160, .f32⟩
  | 76 => ⟨S_, .f32⟩
  | 77 => ⟨S2x1x160x160, .f32⟩
  | 78 => ⟨S2x1x160x1x160, .f32⟩
  | 79 => ⟨S2x1x160x1x160, .f32⟩
  | 80 => ⟨S_, .f32⟩
  | 81 => ⟨S2x1x160x1x160, .f32⟩
  | 82 => ⟨S2x1x160x1x160, .f32⟩
  | 83 => ⟨S2x1x160x160x160, .f32⟩
  | 84 => ⟨S2x1x160x160x160, .f32⟩
  | 85 => ⟨S2x1x160x160x160, .f32⟩
  | 86 => ⟨S_, .f32⟩
  | 87 => ⟨S2x1x160x160, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S2x1x160x160x160, .f32⟩
  | 95 => ⟨S_, .f32⟩
  | 96 => ⟨S2x1x160x160, .f32⟩
  | 97 => ⟨S2x1x160x160x1, .f32⟩
  | 98 => ⟨S2x1x160x160x1, .f32⟩
  | 99 => ⟨S_, .f32⟩
  | 100 => ⟨S2x1x160x160x1, .f32⟩
  | 101 => ⟨S2x1x160x160x1, .f32⟩
  | 102 => ⟨S2x1x160x160x160, .f32⟩
  | 103 => ⟨S2x1x160x160x160, .f32⟩
  | 104 => ⟨S2x1x160x160x160, .f32⟩
  | 105 => ⟨S_, .f32⟩
  | 106 => ⟨S2x1x160x160, .f32⟩
  | 107 => ⟨S2x1x160x160x1, .f32⟩
  | 108 => ⟨S2x1x160x160x1, .f32⟩
  | 109 => ⟨S_, .f32⟩
  | 110 => ⟨S2x1x160x160x1, .f32⟩
  | 111 => ⟨S2x1x160x160x1, .f32⟩
  | 112 => ⟨S2x1x160x160x160, .f32⟩
  | 113 => ⟨S2x1x160x160x160, .f32⟩
  | 114 => ⟨S2x1x160x160x160, .f32⟩
  | 115 => ⟨S_, .f32⟩
  | 116 => ⟨S2x1x160x160, .f32⟩
  | 117 => ⟨S_, .f32⟩
  | 118 => ⟨S_, .f32⟩
  | 119 => ⟨S_, .f32⟩
  | 120 => ⟨S_, .f32⟩
  | 121 => ⟨S2x1x160x160x160, .f32⟩
  | 122 => ⟨S_, .f32⟩
  | 123 => ⟨S2x1x160x160, .f32⟩
  | 124 => ⟨S2x1x1x160x160, .f32⟩
  | 125 => ⟨S2x1x1x160x160, .f32⟩
  | 126 => ⟨S_, .f32⟩
  | 127 => ⟨S2x1x1x160x160, .f32⟩
  | _ => ⟨S2x1x160x160x160, .f32⟩

abbrev hbmTy0_1 (i : Nat) : BufTy := match i % 128 with
  | 0 => ⟨S2x1x1x160x160, .f32⟩
  | 1 => ⟨S2x1x160x160x160, .f32⟩
  | 2 => ⟨S2x1x160x160x160, .f32⟩
  | 3 => ⟨S2x1x160x160x160, .f32⟩
  | 4 => ⟨S_, .f32⟩
  | 5 => ⟨S2x1x160x160, .f32⟩
  | 6 => ⟨S2x1x1x160x160, .f32⟩
  | 7 => ⟨S2x1x1x160x160, .f32⟩
  | 8 => ⟨S_, .f32⟩
  | 9 => ⟨S2x1x1x160x160, .f32⟩
  | 10 => ⟨S2x1x1x160x160, .f32⟩
  | 11 => ⟨S2x1x160x160x160, .f32⟩
  | 12 => ⟨S2x1x160x160x160, .f32⟩
  | 13 => ⟨S2x1x160x160x160, .f32⟩
  | 14 => ⟨S_, .f32⟩
  | 15 => ⟨S2x1x160x160, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S2x1x160x160x160, .f32⟩
  | 23 => ⟨S_, .f32⟩
  | 24 => ⟨S2x1x160x160, .f32⟩
  | 25 => ⟨S2x1x160x1x160, .f32⟩
  | 26 => ⟨S2x1x160x1x160, .f32⟩
  | 27 => ⟨S_, .f32⟩
  | 28 => ⟨S2x1x160x1x160, .f32⟩
  | 29 => ⟨S2x1x160x1x160, .f32⟩
  | 30 => ⟨S2x1x160x160x160, .f32⟩
  | 31 => ⟨S2x1x160x160x160, .f32⟩
  | 32 => ⟨S2x1x160x160x160, .f32⟩
  | 33 => ⟨S_, .f32⟩
  | 34 => ⟨S2x1x160x160, .f32⟩
  | 35 => ⟨S2x1x160x1x160, .f32⟩
  | 36 => ⟨S2x1x160x1x160, .f32⟩
  | 37 => ⟨S_, .f32⟩
  | 38 => ⟨S2x1x160x1x160, .f32⟩
  | 39 => ⟨S2x1x160x1x160, .f32⟩
  | 40 => ⟨S2x1x160x160x160, .f32⟩
  | 41 => ⟨S2x1x160x160x160, .f32⟩
  | 42 => ⟨S2x1x160x160x160, .f32⟩
  | 43 => ⟨S_, .f32⟩
  | 44 => ⟨S2x1x160x160, .f32⟩
  | 45 => ⟨S_, .f32⟩
  | 46 => ⟨S_, .f32⟩
  | 47 => ⟨S_, .f32⟩
  | 48 => ⟨S_, .f32⟩
  | 49 => ⟨S2x1x160x160x160, .f32⟩
  | 50 => ⟨S_, .f32⟩
  | 51 => ⟨S2x1x160x160, .f32⟩
  | 52 => ⟨S2x1x1x160x160, .f32⟩
  | 53 => ⟨S2x1x1x160x160, .f32⟩
  | 54 => ⟨S_, .f32⟩
  | 55 => ⟨S2x1x1x160x160, .f32⟩
  | 56 => ⟨S2x1x1x160x160, .f32⟩
  | 57 => ⟨S2x1x160x160x160, .f32⟩
  | 58 => ⟨S2x1x160x160x160, .f32⟩
  | 59 => ⟨S2x1x160x160x160, .f32⟩
  | 60 => ⟨S_, .f32⟩
  | 61 => ⟨S2x1x160x160, .f32⟩
  | 62 => ⟨S2x1x1x160x160, .f32⟩
  | 63 => ⟨S2x1x1x160x160, .f32⟩
  | 64 => ⟨S_, .f32⟩
  | 65 => ⟨S2x1x1x160x160, .f32⟩
  | 66 => ⟨S2x1x1x160x160, .f32⟩
  | 67 => ⟨S2x1x160x160x160, .f32⟩
  | 68 => ⟨S2x1x160x160x160, .f32⟩
  | 69 => ⟨S2x1x160x160x160, .f32⟩
  | 70 => ⟨S_, .f32⟩
  | 71 => ⟨S2x1x160x160, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | _ => ⟨S2x1x160x160x160, .f32⟩

abbrev hbmTy (i : Nat) : BufTy := match i / 128 with
  | 0 => hbmTy0_0 i
  | 1 => hbmTy0_1 i
  | _ => ⟨S2x1x160x160x160, .f32⟩

abbrev bufTy : (tb : Table) → Fin (tcTables nBuf tb) → BufTy
  | .hbm, ⟨i, _⟩ => hbmTy i
  | _, _ => ⟨S2x1x160x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call2_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_call3_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call4_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_call5_v0 : Ref sig .tc := ⟨.hbm, 36, rfl⟩
abbrev main_v23 : Ref sig .tc := ⟨.hbm, 37, rfl⟩
abbrev main_call6_v0 : Ref sig .tc := ⟨.hbm, 38, rfl⟩
abbrev main_call6_cst : Ref sig .tc := ⟨.hbm, 39, rfl⟩
abbrev main_call6_v1 : Ref sig .tc := ⟨.hbm, 40, rfl⟩
abbrev main_call6_v2 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call7_v0 : Ref sig .tc := ⟨.hbm, 48, rfl⟩
abbrev main_call7_cst : Ref sig .tc := ⟨.hbm, 49, rfl⟩
abbrev main_call7_v1 : Ref sig .tc := ⟨.hbm, 50, rfl⟩
abbrev main_call7_v2 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_call8_v0 : Ref sig .tc := ⟨.hbm, 65, rfl⟩
abbrev main_call8_cst : Ref sig .tc := ⟨.hbm, 66, rfl⟩
abbrev main_call8_v1 : Ref sig .tc := ⟨.hbm, 67, rfl⟩
abbrev main_call8_v2 : Ref sig .tc := ⟨.hbm, 68, rfl⟩
abbrev main_v38 : Ref sig .tc := ⟨.hbm, 69, rfl⟩
abbrev main_cst_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_call9_v0 : Ref sig .tc := ⟨.hbm, 75, rfl⟩
abbrev main_call9_cst : Ref sig .tc := ⟨.hbm, 76, rfl⟩
abbrev main_call9_v1 : Ref sig .tc := ⟨.hbm, 77, rfl⟩
abbrev main_call9_v2 : Ref sig .tc := ⟨.hbm, 78, rfl⟩
abbrev main_v43 : Ref sig .tc := ⟨.hbm, 79, rfl⟩
abbrev main_cst_10 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_11 : Ref sig .tc := ⟨.hbm, 86, rfl⟩
abbrev main_v49 : Ref sig .tc := ⟨.hbm, 87, rfl⟩
abbrev main_cst_12 : Ref sig .tc := ⟨.hbm, 88, rfl⟩
abbrev main_v50 : Ref sig .tc := ⟨.hbm, 89, rfl⟩
abbrev main_cst_13 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_call10_v0 : Ref sig .tc := ⟨.hbm, 94, rfl⟩
abbrev main_call10_cst : Ref sig .tc := ⟨.hbm, 95, rfl⟩
abbrev main_call10_v1 : Ref sig .tc := ⟨.hbm, 96, rfl⟩
abbrev main_call10_v2 : Ref sig .tc := ⟨.hbm, 97, rfl⟩
abbrev main_v54 : Ref sig .tc := ⟨.hbm, 98, rfl⟩
abbrev main_cst_14 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_call11_v0 : Ref sig .tc := ⟨.hbm, 104, rfl⟩
abbrev main_call11_cst : Ref sig .tc := ⟨.hbm, 105, rfl⟩
abbrev main_call11_v1 : Ref sig .tc := ⟨.hbm, 106, rfl⟩
abbrev main_call11_v2 : Ref sig .tc := ⟨.hbm, 107, rfl⟩
abbrev main_v59 : Ref sig .tc := ⟨.hbm, 108, rfl⟩
abbrev main_cst_15 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_16 : Ref sig .tc := ⟨.hbm, 115, rfl⟩
abbrev main_v65 : Ref sig .tc := ⟨.hbm, 116, rfl⟩
abbrev main_cst_17 : Ref sig .tc := ⟨.hbm, 117, rfl⟩
abbrev main_v66 : Ref sig .tc := ⟨.hbm, 118, rfl⟩
abbrev main_cst_18 : Ref sig .tc := ⟨.hbm, 119, rfl⟩
abbrev main_v67 : Ref sig .tc := ⟨.hbm, 120, rfl⟩
abbrev main_call12_v0 : Ref sig .tc := ⟨.hbm, 121, rfl⟩
abbrev main_call12_cst : Ref sig .tc := ⟨.hbm, 122, rfl⟩
abbrev main_call12_v1 : Ref sig .tc := ⟨.hbm, 123, rfl⟩
abbrev main_call12_v2 : Ref sig .tc := ⟨.hbm, 124, rfl⟩
abbrev main_v68 : Ref sig .tc := ⟨.hbm, 125, rfl⟩
abbrev main_cst_19 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_call13_v0 : Ref sig .tc := ⟨.hbm, 131, rfl⟩
abbrev main_call13_cst : Ref sig .tc := ⟨.hbm, 132, rfl⟩
abbrev main_call13_v1 : Ref sig .tc := ⟨.hbm, 133, rfl⟩
abbrev main_call13_v2 : Ref sig .tc := ⟨.hbm, 134, rfl⟩
abbrev main_v73 : Ref sig .tc := ⟨.hbm, 135, rfl⟩
abbrev main_cst_20 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_cst_21 : Ref sig .tc := ⟨.hbm, 142, rfl⟩
abbrev main_v79 : Ref sig .tc := ⟨.hbm, 143, rfl⟩
abbrev main_cst_22 : Ref sig .tc := ⟨.hbm, 144, rfl⟩
abbrev main_v80 : Ref sig .tc := ⟨.hbm, 145, rfl⟩
abbrev main_cst_23 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_call14_v0 : Ref sig .tc := ⟨.hbm, 150, rfl⟩
abbrev main_call14_cst : Ref sig .tc := ⟨.hbm, 151, rfl⟩
abbrev main_call14_v1 : Ref sig .tc := ⟨.hbm, 152, rfl⟩
abbrev main_call14_v2 : Ref sig .tc := ⟨.hbm, 153, rfl⟩
abbrev main_v84 : Ref sig .tc := ⟨.hbm, 154, rfl⟩
abbrev main_cst_24 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_call15_v0 : Ref sig .tc := ⟨.hbm, 160, rfl⟩
abbrev main_call15_cst : Ref sig .tc := ⟨.hbm, 161, rfl⟩
abbrev main_call15_v1 : Ref sig .tc := ⟨.hbm, 162, rfl⟩
abbrev main_call15_v2 : Ref sig .tc := ⟨.hbm, 163, rfl⟩
abbrev main_v89 : Ref sig .tc := ⟨.hbm, 164, rfl⟩
abbrev main_cst_25 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_cst_26 : Ref sig .tc := ⟨.hbm, 171, rfl⟩
abbrev main_v95 : Ref sig .tc := ⟨.hbm, 172, rfl⟩
abbrev main_cst_27 : Ref sig .tc := ⟨.hbm, 173, rfl⟩
abbrev main_v96 : Ref sig .tc := ⟨.hbm, 174, rfl⟩
abbrev main_cst_28 : Ref sig .tc := ⟨.hbm, 175, rfl⟩
abbrev main_v97 : Ref sig .tc := ⟨.hbm, 176, rfl⟩
abbrev main_call16_v0 : Ref sig .tc := ⟨.hbm, 177, rfl⟩
abbrev main_call16_cst : Ref sig .tc := ⟨.hbm, 178, rfl⟩
abbrev main_call16_v1 : Ref sig .tc := ⟨.hbm, 179, rfl⟩
abbrev main_call16_v2 : Ref sig .tc := ⟨.hbm, 180, rfl⟩
abbrev main_v98 : Ref sig .tc := ⟨.hbm, 181, rfl⟩
abbrev main_cst_29 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_call17_v0 : Ref sig .tc := ⟨.hbm, 187, rfl⟩
abbrev main_call17_cst : Ref sig .tc := ⟨.hbm, 188, rfl⟩
abbrev main_call17_v1 : Ref sig .tc := ⟨.hbm, 189, rfl⟩
abbrev main_call17_v2 : Ref sig .tc := ⟨.hbm, 190, rfl⟩
abbrev main_v103 : Ref sig .tc := ⟨.hbm, 191, rfl⟩
abbrev main_cst_30 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_cst_31 : Ref sig .tc := ⟨.hbm, 198, rfl⟩
abbrev main_v109 : Ref sig .tc := ⟨.hbm, 199, rfl⟩
abbrev main_cst_32 : Ref sig .tc := ⟨.hbm, 200, rfl⟩
abbrev main_v110 : Ref sig .tc := ⟨.hbm, 201, rfl⟩
abbrev main_cst_33 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_cst_34 : Ref sig .tc := ⟨.hbm, 208, rfl⟩
abbrev main_v116 : Ref sig .tc := ⟨.hbm, 209, rfl⟩

abbrev nD : Nat := 1
abbrev τ : Topo := Topo.v7x

variable {F : FTy → Type} [FloatOps F]

class Facts₀ : Prop where
  slices_S2x1x160x160x160_S2x1x159x160x160_0_0_1_0_0 : S2x1x160x160x160.Slices ![0, 0, 1, 0, 0] S2x1x159x160x160
  slices_S2x1x160x160x160_S2x1x159x160x160_0_0_0_0_0 : S2x1x160x160x160.Slices ![0, 0, 0, 0, 0] S2x1x159x160x160
  pads_S2x1x159x160x160_S2x1x160x160x160_000_000_010_000_000 : S2x1x159x160x160.Pads (![0, 0, 0, 0, 0] : Fin 5 → Nat) ![0, 0, 1, 0, 0] ![0, 0, 0, 0, 0] S2x1x160x160x160
  h_S_ : 0 < S_.numel
  slices_S2x1x160x160x160_S2x1x160x159x160_0_0_0_1_0 : S2x1x160x160x160.Slices ![0, 0, 0, 1, 0] S2x1x160x159x160
  slices_S2x1x160x160x160_S2x1x160x159x160_0_0_0_0_0 : S2x1x160x160x160.Slices ![0, 0, 0, 0, 0] S2x1x160x159x160
  pads_S2x1x160x159x160_S2x1x160x160x160_000_000_000_010_000 : S2x1x160x159x160.Pads (![0, 0, 0, 0, 0] : Fin 5 → Nat) ![0, 0, 0, 1, 0] ![0, 0, 0, 0, 0] S2x1x160x160x160
  slices_S2x1x160x160x160_S2x1x160x160x159_0_0_0_0_1 : S2x1x160x160x160.Slices ![0, 0, 0, 0, 1] S2x1x160x160x159
  slices_S2x1x160x160x160_S2x1x160x160x159_0_0_0_0_0 : S2x1x160x160x160.Slices ![0, 0, 0, 0, 0] S2x1x160x160x159
  pads_S2x1x160x160x159_S2x1x160x160x160_000_000_000_000_010 : S2x1x160x160x159.Pads (![0, 0, 0, 0, 0] : Fin 5 → Nat) ![0, 0, 0, 0, 1] ![0, 0, 0, 0, 0] S2x1x160x160x160
  reducesTo_S2x1x160x160x160_S2x1x160x160_d4 : S2x1x160x160x160.ReducesTo [4] S2x1x160x160
  bcast_S2x1x160x160_S2x1x160x160x1_0_1_2_3 : S2x1x160x160.BroadcastsInDim S2x1x160x160x1 (![0, 1, 2, 3] : Fin 4 → Fin S2x1x160x160x1.rank)
  bcast_S_S2x1x160x160x1 : S_.BroadcastsInDim S2x1x160x160x1 (![] : Fin 0 → Fin S2x1x160x160x1.rank)
  bcast_S2x1x160x160x1_S2x1x160x160x160_0_1_2_3_4 : S2x1x160x160x1.BroadcastsInDim S2x1x160x160x160 (![0, 1, 2, 3, 4] : Fin 5 → Fin S2x1x160x160x160.rank)
  reducesTo_S2x1x160x160_S_d0_1_2_3 : S2x1x160x160.ReducesTo [0, 1, 2, 3] S_
  reducesTo_S2x1x160x160x160_S2x1x160x160_d3 : S2x1x160x160x160.ReducesTo [3] S2x1x160x160
  bcast_S2x1x160x160_S2x1x160x1x160_0_1_2_4 : S2x1x160x160.BroadcastsInDim S2x1x160x1x160 (![0, 1, 2, 4] : Fin 4 → Fin S2x1x160x1x160.rank)
  bcast_S_S2x1x160x1x160 : S_.BroadcastsInDim S2x1x160x1x160 (![] : Fin 0 → Fin S2x1x160x1x160.rank)
  bcast_S2x1x160x1x160_S2x1x160x160x160_0_1_2_3_4 : S2x1x160x1x160.BroadcastsInDim S2x1x160x160x160 (![0, 1, 2, 3, 4] : Fin 5 → Fin S2x1x160x160x160.rank)
  reducesTo_S2x1x160x160x160_S2x1x160x160_d2 : S2x1x160x160x160.ReducesTo [2] S2x1x160x160
  bcast_S2x1x160x160_S2x1x1x160x160_0_1_3_4 : S2x1x160x160.BroadcastsInDim S2x1x1x160x160 (![0, 1, 3, 4] : Fin 4 → Fin S2x1x1x160x160.rank)
  bcast_S_S2x1x1x160x160 : S_.BroadcastsInDim S2x1x1x160x160 (![] : Fin 0 → Fin S2x1x1x160x160.rank)
  bcast_S2x1x1x160x160_S2x1x160x160x160_0_1_2_3_4 : S2x1x1x160x160.BroadcastsInDim S2x1x160x160x160 (![0, 1, 2, 3, 4] : Fin 5 → Fin S2x1x160x160x160.rank)

variable [Facts₀]

class Facts : Prop extends Facts₀ where

variable [Facts]
-- ==== Proof.K.Base.lean ====
import proofs.«415577_j83279415869695_3_alg».proof.Proof.Gen.Kernel.Launch
import proofs.«415577_j83279415869695_3_alg».proof.Proof.Gen.Kernel.Skeleton
import proofs.«415577_j83279415869695_3_alg».proof.Proof.Gen.Kernel.Points
import Idealize.ShloMosaic.Lib.Pipeline.FrameBody
import Idealize.ShloMosaic.Lib.Tactic
import Idealize.ShloMosaic.Lib.Ring

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev V (c : Dev nD) (b : Ref sig .tc) : Buf (Elt F) ((c : Thread nD τ).loc b) := m ((c : Thread nD τ).loc b)

-- Window w's block at point t, read off its array.
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

-- The body branches on the second grid coordinate being 0 (reset) and being 4 (finish).
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 5 = 0 :=
  (by decide +kernel : ∀ t : Fin grid0.N, condFirst (grid0.coords t) ↔ t.val % 5 = 0)
abbrev condLast (i : grid0.Coords) : Prop := k0_cond2 i = 1#1
theorem hcondLast : ∀ t : Fin cfg0.N, condLast (grid0.coords t) ↔ t.val % 5 = 4 :=
  (by decide +kernel : ∀ t : Fin grid0.N, condLast (grid0.coords t) ↔ t.val % 5 = 4)

theorem liveIn : ∀ (w : Fin cfg0.W) (t : Fin cfg0.N), w.val < 4 → cfg0.idle w (grid0.coords t) = false := by decide +kernel
theorem idleOut : ∀ t : Fin cfg0.N, ¬condLast (grid0.coords t) → cfg0.idle 4 (grid0.coords t) = true ∧ (cfg0.win 4).flush t = false := by decide +kernel
theorem liveOut : ∀ t : Fin cfg0.N, condLast (grid0.coords t) → cfg0.idle 4 (grid0.coords t) = false := by decide +kernel

abbrev ms0_0 (t : Fin cfg0.N) : Memref sig .tc .vmem S1x1x32x160x160 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32x160x160 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x160x160 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1x160x160 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x6 .f32 := win0_4.stage (cfg0.slots t 4)
abbrev hs0_4 (t : Fin cfg0.N) : (ms0_4 t).IsWhole := hstage0_4 ((cfg0.slots t 4).cast nbuf0_4)

abbrev scM0 : Memref sig .tc .vmem S1x1 .f32 := Memref.whole cc0_scratch0
abbrev scM1 : Memref sig .tc .vmem S1x1 .f32 := Memref.whole cc0_scratch1
abbrev scM2 : Memref sig .tc .vmem S1x1 .f32 := Memref.whole cc0_scratch2
abbrev scM3 : Memref sig .tc .vmem S1x1 .f32 := Memref.whole cc0_scratch3
abbrev scM4 : Memref sig .tc .vmem S1x1 .f32 := Memref.whole cc0_scratch4
abbrev scM5 : Memref sig .tc .vmem S1x1 .f32 := Memref.whole cc0_scratch5
abbrev scM6 : Memref sig .tc .vmem S160x160 .f32 := Memref.whole cc0_scratch6
abbrev scM7 : Memref sig .tc .vmem S160x160 .f32 := Memref.whole cc0_scratch7
abbrev scM8 : Memref sig .tc .vmem S160x160 .f32 := Memref.whole cc0_scratch8
abbrev scM9 : Memref sig .tc .vmem S160x160 .f32 := Memref.whole cc0_scratch9
abbrev scM10 : Memref sig .tc .vmem S160x160 .f32 := Memref.whole cc0_scratch10
abbrev scM11 : Memref sig .tc .vmem S160x160 .f32 := Memref.whole cc0_scratch11

-- What the output block and the twelve carried buffers hold after a point.
structure Held (F : FTy → Type) where
  out : Vec F S1x1x6 .f32
  (a0 a1 a2 a3 a4 a5 : Vec F S1x1 .f32)
  (b0 b1 b2 b3 b4 b5 : Vec F S160x160 .f32)

-- Pieces read back through a view over junk: what a buffer they cover holds.
abbrev readBack {s : Shape} {e : EltTy} (v : View sig .tc .vmem s e) (L : List (View.Piece (Elt F) s e)) : s.Idx → Elt F e :=
  v.read (Elt F) (v.writes (Elt F) v.junk L)

abbrev Pcs (F : FTy → Type) (s : Shape) : Type := List (View.Piece (Elt F) s .f32)

-- A buffer owned at given contents, at some contents, and after the stores L.
abbrev holds (c : Dev nD) {s : Shape} (M : Memref sig .tc .vmem s .f32) (v : Vec F s .f32) : sProp 𝕄 := owns (c : Thread nD τ) M fullShare v
abbrev anyAt (c : Dev nD) {s : Shape} (M : Memref sig .tc .vmem s .f32) : sProp 𝕄 := iprop(∃ d, holds c M d)
abbrev wrote (c : Dev nD) {s : Shape} (M : Memref sig .tc .vmem s .f32) (L : Pcs F s) : sProp 𝕄 :=
  iprop(∃ f, M.view.loc (c : Thread nD τ) ↦[M.view.set]{fullShare} M.view.writes (Elt F) f L)

theorem holds_any (c : Dev nD) {s : Shape} (M : Memref sig .tc .vmem s .f32) (v : Vec F s .f32) : holds c M v ⊢ anyAt c M :=
  exists_intro (Φ := fun d => holds c M d) v

-- Stores that tile a buffer leave it at their pieces read back, through any view.
theorem wrote_back (c : Dev nD) {s : Shape} (M : Memref sig .tc .vmem s .f32) (v : View sig .tc .vmem s .f32)
    (L : Pcs F s) (h : View.Piece.tiledL L s.size = true) : wrote c M L ⊢ holds c M (readBack v L) := by
  iintro ⟨%e, H⟩
  ihave H' := (Ring.owns_of_writes_tiledL v s.size) $$ H
  iapply H'; ipureintro; exact h

-- The twelve carried buffers at anything, and at the contents p.
abbrev anyAll (c : Dev nD) : sProp 𝕄 := iprop(anyAt c scM0 ∗ anyAt c scM1 ∗ anyAt c scM2 ∗ anyAt c scM3 ∗ anyAt c scM4 ∗ anyAt c scM5 ∗ anyAt c scM6 ∗ anyAt c scM7 ∗ anyAt c scM8 ∗ anyAt c scM9 ∗ anyAt c scM10 ∗ anyAt c scM11)
abbrev heldAt (c : Dev nD) (p : Held F) : sProp 𝕄 := iprop(holds c scM0 p.a0 ∗ holds c scM1 p.a1 ∗ holds c scM2 p.a2 ∗ holds c scM3 p.a3 ∗ holds c scM4 p.a4 ∗ holds c scM5 p.a5 ∗ holds c scM6 p.b0 ∗ holds c scM7 p.b1 ∗ holds c scM8 p.b2 ∗ holds c scM9 p.b3 ∗ holds c scM10 p.b4 ∗ holds c scM11 p.b5)

theorem PhiA0_eq (c : Dev nD) : (Pipeline.ΦA spec0 c : sProp 𝕄) = iprop(anyAll c ∗ (∃ r, prngReg c r)) := by
  unfold Pipeline.ΦA; rw [scopedRest0_eq]; simp only [anyAll, anyAt, holds, scM0, scM1, scM2, scM3, scM4, scM5, scM6, scM7, scM8, scM9, scM10, scM11, owns_whole]; try rfl

theorem held_any (c : Dev nD) (p : Held F) : heldAt c p ⊢ anyAll c := by
  repeat' refine BI.sep_mono ?_ ?_
  all_goals exact holds_any c _ _

end Cert.Kernel.Frm

end
-- ==== Proof.K.RunFirst.lean ====
import proofs.«415577_j83279415869695_3_alg».proof.Proof.K.Base

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (arg2 arg3 : Memref sig .tc .vmem S1x1x32x160x160 .f32) (arg4 arg5 : Memref sig .tc .vmem S1x1x1x160x160 .f32)
  (arg6 : Memref sig .tc .vmem S1x1x6 .f32) (arg7 arg8 arg9 arg10 arg11 arg12 : Memref sig .tc .vmem S1x1 .f32)
  (arg13 arg14 arg15 arg16 arg17 arg18 : Memref sig .tc .vmem S160x160 .f32)
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole)
  (x0 x1 : Vec F S1x1x32x160x160 .f32) (x2 x3 : Vec F S1x1x1x160x160 .f32)

-- A FIRST point resets every carried buffer before reading it, and skips the finish: the output block is handed back.
set_option maxHeartbeats 4000000 in
noncomputable def kernelRunFirst (c : Dev nD) (i : grid0.Coords) (hc0 : condFirst i) (hc1 : ¬condLast i) :
    Σ' (L4 : Pcs F S1x1x6) (LS0 LS1 LS2 LS3 LS4 LS5 : Pcs F S1x1) (LS6 LS7 LS8 LS9 LS10 : Pcs F S160x160), { LS11 : Pcs F S160x160 //
      ∀ (xi4 : Vec F S1x1x6 .f32) (E : Set ℕ) (K : PUnit → sProp 𝕄),
        iprop(holds c arg2 x0 ∗ holds c arg3 x1 ∗ holds c arg4 x2 ∗ holds c arg5 x3 ∗ holds c arg6 xi4 ∗ iprop(anyAt c arg7 ∗ anyAt c arg8 ∗ anyAt c arg9 ∗ anyAt c arg10 ∗ anyAt c arg11 ∗ anyAt c arg12 ∗ anyAt c arg13 ∗ anyAt c arg14 ∗ anyAt c arg15 ∗ anyAt c arg16 ∗ anyAt c arg17 ∗ anyAt c arg18)
            ∗ (iprop(holds c arg2 x0 ∗ holds c arg3 x1 ∗ holds c arg4 x2 ∗ holds c arg5 x3 ∗ holds c arg6 xi4 ∗ iprop(wrote c arg7 LS0 ∗ wrote c arg8 LS1 ∗ wrote c arg9 LS2 ∗ wrote c arg10 LS3 ∗ wrote c arg11 LS4 ∗ wrote c arg12 LS5 ∗ wrote c arg13 LS6 ∗ wrote c arg14 LS7 ∗ wrote c arg15 LS8 ∗ wrote c arg16 LS9 ∗ wrote c arg17 LS10 ∗ wrote c arg18 LS11)) -∗ K ⟨⟩))
          ⊢ wp frame (wpE (defs₀ (F := F)) Variants.none c none) E (cc0__gploss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, ?_, ?_, ?_, ?_, ?_, ?_, ?_, ?_, ?_, ?_, fun xi4 E K => ?run⟩
  case run =>
    simp only [cc0__gploss_kernel_eq_skeleton]; unfold cc0__gploss_kernel_skel
    unfold anyAt wrote holds owns
    iintro ⟨⟨%f0, %hf0, H0⟩, ⟨%f1, %hf1, H1⟩, ⟨%f2, %hf2, H2⟩, ⟨%f3, %hf3, H3⟩, ⟨%f4, %hf4, H4⟩, ⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    iexists _; iexact HS11

end Cert.Kernel.Frm

end
-- ==== Proof.K.RunMid.lean ====
import proofs.«415577_j83279415869695_3_alg».proof.Proof.K.Base

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (arg2 arg3 : Memref sig .tc .vmem S1x1x32x160x160 .f32) (arg4 arg5 : Memref sig .tc .vmem S1x1x1x160x160 .f32)
  (arg6 : Memref sig .tc .vmem S1x1x6 .f32) (arg7 arg8 arg9 arg10 arg11 arg12 : Memref sig .tc .vmem S1x1 .f32)
  (arg13 arg14 arg15 arg16 arg17 arg18 : Memref sig .tc .vmem S160x160 .f32)
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole)
  (x0 x1 : Vec F S1x1x32x160x160 .f32) (x2 x3 : Vec F S1x1x1x160x160 .f32)

-- A MID point takes neither branch: ten carried buffers are stored into, the fifth, the sixth and the output block handed back.
set_option maxHeartbeats 4000000 in
noncomputable def kernelRunMid (c : Dev nD) (i : grid0.Coords) (hc0 : ¬condFirst i) (hc1 : ¬condLast i) (p : Held F) :
    Σ' (L4 : Pcs F S1x1x6) (LS0 LS1 LS2 LS3 LS4 LS5 : Pcs F S1x1) (LS6 LS7 LS8 LS9 LS10 : Pcs F S160x160), { LS11 : Pcs F S160x160 //
      ∀ (xi4 : Vec F S1x1x6 .f32) (E : Set ℕ) (K : PUnit → sProp 𝕄),
        iprop(holds c arg2 x0 ∗ holds c arg3 x1 ∗ holds c arg4 x2 ∗ holds c arg5 x3 ∗ holds c arg6 xi4 ∗ iprop(holds c arg7 p.a0 ∗ holds c arg8 p.a1 ∗ holds c arg9 p.a2 ∗ holds c arg10 p.a3 ∗ holds c arg11 p.a4 ∗ holds c arg12 p.a5 ∗ holds c arg13 p.b0 ∗ holds c arg14 p.b1 ∗ holds c arg15 p.b2 ∗ holds c arg16 p.b3 ∗ holds c arg17 p.b4 ∗ holds c arg18 p.b5)
            ∗ (iprop(holds c arg2 x0 ∗ holds c arg3 x1 ∗ holds c arg4 x2 ∗ holds c arg5 x3 ∗ holds c arg6 xi4 ∗ iprop(wrote c arg7 LS0 ∗ wrote c arg8 LS1 ∗ wrote c arg9 LS2 ∗ wrote c arg10 LS3 ∗ holds c arg11 p.a4 ∗ holds c arg12 p.a5 ∗ wrote c arg13 LS6 ∗ wrote c arg14 LS7 ∗ wrote c arg15 LS8 ∗ wrote c arg16 LS9 ∗ wrote c arg17 LS10 ∗ wrote c arg18 LS11)) -∗ K ⟨⟩))
          ⊢ wp frame (wpE (defs₀ (F := F)) Variants.none c none) E (cc0__gploss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, ?_, ?_, [], [], ?_, ?_, ?_, ?_, ?_, ?_, fun xi4 E K => ?run⟩
  case run =>
    simp only [cc0__gploss_kernel_eq_skeleton]; unfold cc0__gploss_kernel_skel
    unfold wrote holds owns
    iintro ⟨⟨%f0, %hf0, H0⟩, ⟨%f1, %hf1, H1⟩, ⟨%f2, %hf2, H2⟩, ⟨%f3, %hf3, H3⟩, ⟨%f4, %hf4, H4⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, ⟨%fs10, %hfs10, HS10⟩, ⟨%fs11, %hfs11, HS11⟩⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5; obtain rfl := harg13.eq_unread hfs6; obtain rfl := harg14.eq_unread hfs7; obtain rfl := harg15.eq_unread hfs8; obtain rfl := harg16.eq_unread hfs9; obtain rfl := harg17.eq_unread hfs10; obtain rfl := harg18.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    isplitl [HS4]
    · iexists _; isplitr; · ipureintro; exact harg11.read_unread _
      iexact HS4
    isplitl [HS5]
    · iexists _; isplitr; · ipureintro; exact harg12.read_unread _
      iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    iexists _; iexact HS11

end Cert.Kernel.Frm

end
-- ==== Proof.K.RunLast.lean ====
import proofs.«415577_j83279415869695_3_alg».proof.Proof.K.Base

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (arg2 arg3 : Memref sig .tc .vmem S1x1x32x160x160 .f32) (arg4 arg5 : Memref sig .tc .vmem S1x1x1x160x160 .f32)
  (arg6 : Memref sig .tc .vmem S1x1x6 .f32) (arg7 arg8 arg9 arg10 arg11 arg12 : Memref sig .tc .vmem S1x1 .f32)
  (arg13 arg14 arg15 arg16 arg17 arg18 : Memref sig .tc .vmem S160x160 .f32)
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole)
  (x0 x1 : Vec F S1x1x32x160x160 .f32) (x2 x3 : Vec F S1x1x1x160x160 .f32)

-- A LAST point skips the reset and finishes: every carried buffer and the output block are stored into.
set_option maxHeartbeats 4000000 in
noncomputable def kernelRunLast (c : Dev nD) (i : grid0.Coords) (hc0 : ¬condFirst i) (hc1 : condLast i) (p : Held F) :
    Σ' (L4 : Pcs F S1x1x6) (LS0 LS1 LS2 LS3 LS4 LS5 : Pcs F S1x1) (LS6 LS7 LS8 LS9 LS10 : Pcs F S160x160), { LS11 : Pcs F S160x160 //
      ∀ (E : Set ℕ) (K : PUnit → sProp 𝕄),
        iprop(holds c arg2 x0 ∗ holds c arg3 x1 ∗ holds c arg4 x2 ∗ holds c arg5 x3 ∗ anyAt c arg6 ∗ iprop(holds c arg7 p.a0 ∗ holds c arg8 p.a1 ∗ holds c arg9 p.a2 ∗ holds c arg10 p.a3 ∗ holds c arg11 p.a4 ∗ holds c arg12 p.a5 ∗ holds c arg13 p.b0 ∗ holds c arg14 p.b1 ∗ holds c arg15 p.b2 ∗ holds c arg16 p.b3 ∗ holds c arg17 p.b4 ∗ holds c arg18 p.b5)
            ∗ (iprop(holds c arg2 x0 ∗ holds c arg3 x1 ∗ holds c arg4 x2 ∗ holds c arg5 x3 ∗ wrote c arg6 L4 ∗ iprop(wrote c arg7 LS0 ∗ wrote c arg8 LS1 ∗ wrote c arg9 LS2 ∗ wrote c arg10 LS3 ∗ wrote c arg11 LS4 ∗ wrote c arg12 LS5 ∗ wrote c arg13 LS6 ∗ wrote c arg14 LS7 ∗ wrote c arg15 LS8 ∗ wrote c arg16 LS9 ∗ wrote c arg17 LS10 ∗ wrote c arg18 LS11)) -∗ K ⟨⟩))
          ⊢ wp frame (wpE (defs₀ (F := F)) Variants.none c none) E (cc0__gploss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, ?_, ?_, ?_, ?_, fun E K => ?run⟩
  case run =>
    simp only [cc0__gploss_kernel_eq_skeleton]; unfold cc0__gploss_kernel_skel
    unfold anyAt wrote holds owns
    iintro ⟨⟨%f0, %hf0, H0⟩, ⟨%f1, %hf1, H1⟩, ⟨%f2, %hf2, H2⟩, ⟨%f3, %hf3, H3⟩, ⟨%d4, %f4, -, H4⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, ⟨%fs10, %hfs10, HS10⟩, ⟨%fs11, %hfs11, HS11⟩⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5; obtain rfl := harg13.eq_unread hfs6; obtain rfl := harg14.eq_unread hfs7; obtain rfl := harg15.eq_unread hfs8; obtain rfl := harg16.eq_unread hfs9; obtain rfl := harg17.eq_unread hfs10; obtain rfl := harg18.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    iexists _; iexact HS11

end Cert.Kernel.Frm

end
-- ==== Proof.K.Data1.lean ====
import proofs.«415577_j83279415869695_3_alg».proof.Proof.K.RunFirst
import proofs.«415577_j83279415869695_3_alg».proof.Proof.K.RunMid
import proofs.«415577_j83279415869695_3_alg».proof.Proof.K.RunLast

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- The output block's contents are stated through one fixed view: pieces that cover a block read back the same through any.
abbrev VO4 : View sig .tc .vmem S1x1x6 .f32 := (Memref.whole cc0_stg4_0 : Memref sig .tc .vmem S1x1x6 .f32).view

-- The body's three runs on the memrefs and blocks of point t.
def runFirstAt (c : Dev nD) (t : Fin cfg0.N) (h0 : t.val % 5 = 0) :=
  kernelRunFirst (F := F) (ms0_0 t) (ms0_1 t) (ms0_2 t) (ms0_3 t) (ms0_4 t) scM0 scM1 scM2 scM3 scM4 scM5 scM6 scM7 scM8 scM9 scM10 scM11 (hs0_0 t) (hs0_1 t) (hs0_2 t) (hs0_3 t) (hs0_4 t) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (iblk m c 0 t) (iblk m c 1 t) (iblk m c 2 t) (iblk m c 3 t) c (grid0.coords t) ((hcondFirst t).mpr h0) (fun h => absurd ((hcondLast t).mp h) (by omega))
def runMidAt (c : Dev nD) (t : Fin cfg0.N) (h0 : ¬t.val % 5 = 0) (h4 : ¬t.val % 5 = 4) (p : Held F) :=
  kernelRunMid (F := F) (ms0_0 t) (ms0_1 t) (ms0_2 t) (ms0_3 t) (ms0_4 t) scM0 scM1 scM2 scM3 scM4 scM5 scM6 scM7 scM8 scM9 scM10 scM11 (hs0_0 t) (hs0_1 t) (hs0_2 t) (hs0_3 t) (hs0_4 t) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (iblk m c 0 t) (iblk m c 1 t) (iblk m c 2 t) (iblk m c 3 t) c (grid0.coords t) (fun h => h0 ((hcondFirst t).mp h)) (fun h => h4 ((hcondLast t).mp h)) p
def runLastAt (c : Dev nD) (t : Fin cfg0.N) (h0 : ¬t.val % 5 = 0) (h4 : t.val % 5 = 4) (p : Held F) :=
  kernelRunLast (F := F) (ms0_0 t) (ms0_1 t) (ms0_2 t) (ms0_3 t) (ms0_4 t) scM0 scM1 scM2 scM3 scM4 scM5 scM6 scM7 scM8 scM9 scM10 scM11 (hs0_0 t) (hs0_1 t) (hs0_2 t) (hs0_3 t) (hs0_4 t) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (iblk m c 0 t) (iblk m c 1 t) (iblk m c 2 t) (iblk m c 3 t) c (grid0.coords t) (fun h => h0 ((hcondFirst t).mp h)) ((hcondLast t).mpr h4) p

-- What each kind of point leaves: the stored buffers at their pieces read back, the others as they were (a block
-- that is not stored gets a placeholder nothing consults).
def stepFirst (c : Dev nD) (t : Fin cfg0.N) (h0 : t.val % 5 = 0) : Held F where
  out := readBack VO4 (runFirstAt m c t h0).1
  a0 := readBack scM0.view (runFirstAt m c t h0).2.1
  a1 := readBack scM1.view (runFirstAt m c t h0).2.2.1
  a2 := readBack scM2.view (runFirstAt m c t h0).2.2.2.1
  a3 := readBack scM3.view (runFirstAt m c t h0).2.2.2.2.1
  a4 := readBack scM4.view (runFirstAt m c t h0).2.2.2.2.2.1
  a5 := readBack scM5.view (runFirstAt m c t h0).2.2.2.2.2.2.1
  b0 := readBack scM6.view (runFirstAt m c t h0).2.2.2.2.2.2.2.1
  b1 := readBack scM7.view (runFirstAt m c t h0).2.2.2.2.2.2.2.2.1
  b2 := readBack scM8.view (runFirstAt m c t h0).2.2.2.2.2.2.2.2.2.1
  b3 := readBack scM9.view (runFirstAt m c t h0).2.2.2.2.2.2.2.2.2.2.1
  b4 := readBack scM10.view (runFirstAt m c t h0).2.2.2.2.2.2.2.2.2.2.2.1
  b5 := readBack scM11.view (runFirstAt m c t h0).2.2.2.2.2.2.2.2.2.2.2.2.1
def stepMid (c : Dev nD) (t : Fin cfg0.N) (h0 : ¬t.val % 5 = 0) (h4 : ¬t.val % 5 = 4) (p : Held F) : Held F where
  out := readBack VO4 (runMidAt m c t h0 h4 p).1
  a0 := readBack scM0.view (runMidAt m c t h0 h4 p).2.1
  a1 := readBack scM1.view (runMidAt m c t h0 h4 p).2.2.1
  a2 := readBack scM2.view (runMidAt m c t h0 h4 p).2.2.2.1
  a3 := readBack scM3.view (runMidAt m c t h0 h4 p).2.2.2.2.1
  a4 := p.a4
  a5 := p.a5
  b0 := readBack scM6.view (runMidAt m c t h0 h4 p).2.2.2.2.2.2.2.1
  b1 := readBack scM7.view (runMidAt m c t h0 h4 p).2.2.2.2.2.2.2.2.1
  b2 := readBack scM8.view (runMidAt m c t h0 h4 p).2.2.2.2.2.2.2.2.2.1
  b3 := readBack scM9.view (runMidAt m c t h0 h4 p).2.2.2.2.2.2.2.2.2.2.1
  b4 := readBack scM10.view (runMidAt m c t h0 h4 p).2.2.2.2.2.2.2.2.2.2.2.1
  b5 := readBack scM11.view (runMidAt m c t h0 h4 p).2.2.2.2.2.2.2.2.2.2.2.2.1
def stepLast (c : Dev nD) (t : Fin cfg0.N) (h0 : ¬t.val % 5 = 0) (h4 : t.val % 5 = 4) (p : Held F) : Held F where
  out := readBack VO4 (runLastAt m c t h0 h4 p).1
  a0 := readBack scM0.view (runLastAt m c t h0 h4 p).2.1
  a1 := readBack scM1.view (runLastAt m c t h0 h4 p).2.2.1
  a2 := readBack scM2.view (runLastAt m c t h0 h4 p).2.2.2.1
  a3 := readBack scM3.view (runLastAt m c t h0 h4 p).2.2.2.2.1
  a4 := readBack scM4.view (runLastAt m c t h0 h4 p).2.2.2.2.2.1
  a5 := readBack scM5.view (runLastAt m c t h0 h4 p).2.2.2.2.2.2.1
  b0 := readBack scM6.view (runLastAt m c t h0 h4 p).2.2.2.2.2.2.2.1
  b1 := readBack scM7.view (runLastAt m c t h0 h4 p).2.2.2.2.2.2.2.2.1
  b2 := readBack scM8.view (runLastAt m c t h0 h4 p).2.2.2.2.2.2.2.2.2.1
  b3 := readBack scM9.view (runLastAt m c t h0 h4 p).2.2.2.2.2.2.2.2.2.2.1
  b4 := readBack scM10.view (runLastAt m c t h0 h4 p).2.2.2.2.2.2.2.2.2.2.2.1
  b5 := readBack scM11.view (runLastAt m c t h0 h4 p).2.2.2.2.2.2.2.2.2.2.2.2.1

end Cert.Kernel.Frm

end
-- ==== Proof.K.Data2.lean ====
import proofs.«415577_j83279415869695_3_alg».proof.Proof.K.Data1

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- What point n leaves: a FIRST point's from its own blocks alone, a later point's over what point n - 1 left.
def outsAt0 (c : Dev nD) : (n : ℕ) → n < cfg0.N → Held F
  | 0, hn => stepFirst m c ⟨0, hn⟩ (Nat.zero_mod _)
  | n + 1, hn =>
    if h0 : (n + 1) % 5 = 0 then stepFirst m c ⟨n + 1, hn⟩ h0
    else if h4 : (n + 1) % 5 = 4 then stepLast m c ⟨n + 1, hn⟩ h0 h4 (outsAt0 c n (Nat.lt_of_succ_lt hn))
    else stepMid m c ⟨n + 1, hn⟩ h0 h4 (outsAt0 c n (Nat.lt_of_succ_lt hn))

theorem outsAt0_first (c : Dev nD) (t : Fin cfg0.N) (h0 : t.val % 5 = 0) :
    outsAt0 m c t.val t.isLt = stepFirst m c t h0 := by
  obtain ⟨n, hn⟩ := t
  cases n with
  | zero => rfl
  | succ n => exact dif_pos h0

theorem outsAt0_mid (c : Dev nD) (t : Fin cfg0.N) (h0 : ¬t.val % 5 = 0) (h4 : ¬t.val % 5 = 4) :
    outsAt0 m c t.val t.isLt = stepMid m c t h0 h4 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h4)

theorem outsAt0_last (c : Dev nD) (t : Fin cfg0.N) (h0 : ¬t.val % 5 = 0) (h4 : t.val % 5 = 4) :
    outsAt0 m c t.val t.isLt = stepLast m c t h0 h4 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h4)

-- The invariant before point n: before the first point the carried buffers hold anything, afterwards what point n - 1 left.
def PhiS (c : Dev nD) : (n : ℕ) → n ≤ cfg0.N → sProp 𝕄
  | 0, _ => Pipeline.ΦA spec0 c
  | n + 1, hn => iprop(heldAt c (outsAt0 m c n hn) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(heldAt c (outsAt0 m c (n - 1) (by omega)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).out
  Φ t := PhiS m c t.val (Nat.le_of_lt_succ t.isLt)
  q w := if w.val < 2 then fullShare.left else fullShare.right
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = if w.val < 2 then fullShare.left else fullShare.right := by
  dsimp only [dats]

theorem owed_eq (c : Dev nD) (t : Fin (cfg0.N + 1)) : (dats m 0 c).owed t = 0 := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).out := by dsimp only [dats]

-- The body finds each input block as it is in the argument array.
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq m c 0]; try rfl) t d).trans
    (by unfold Dat.fetched Dat.blockOf iblk; rw [A_eq m c 0]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq m c 1]; try rfl) t d).trans
    (by unfold Dat.fetched Dat.blockOf iblk; rw [A_eq m c 1]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq m c 2]; try rfl) t d).trans
    (by unfold Dat.fetched Dat.blockOf iblk; rw [A_eq m c 2]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq m c 3]; try rfl) t d).trans
    (by unfold Dat.fetched Dat.blockOf iblk; rw [A_eq m c 3]; try rfl)

-- What the body is called with at point t, the windows one by one, and what it returns.
def bodyPre (c : Dev nD) (t : Fin cfg0.N) : sProp 𝕄 :=
  iprop((dats m 0 c).Φ t.castSucc ∗ (dats m 0 c).owesAt () t.castSucc
    ∗ (∃ d, holds c (ms0_0 t) ((dats m 0 c).before 0 t d))
    ∗ (∃ d, holds c (ms0_1 t) ((dats m 0 c).before 1 t d))
    ∗ (∃ d, holds c (ms0_2 t) ((dats m 0 c).before 2 t d))
    ∗ (∃ d, holds c (ms0_3 t) ((dats m 0 c).before 3 t d))
    ∗ (∃ d, holds c (ms0_4 t) ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem hin (c : Dev nD) : Pipeline.ΦA spec0 c ⊢ (dats m 0 c).Φ 0 := .rfl

-- Carried buffers at named contents are carried buffers at some contents.
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  exact sep_mono_l (held_any c _)

theorem hout (c : Dev nD) : (dats m 0 c).Φ (Fin.last cfg0.N) ⊢ Pipeline.ΦA spec0 c :=
  Phi_out m c _ (by rw [Fin.val_last]; have : cfg0.N = 10 := N_0; omega)

-- So before any point the carried buffers hold some contents.
theorem Phi_start (c : Dev nD) (t : Fin cfg0.N) : (dats m 0 c).Φ t.castSucc ⊢ Pipeline.ΦA spec0 c := by
  by_cases hz : t.val = 0
  · rw [PhiS_castSucc m c t, PhiS_zero m c _ _ hz]
  · exact Phi_out m c t.castSucc (by rw [Fin.coe_castSucc]; exact hz)

-- The obligation at a point with the four input blocks and what the point leaves spelled out: the part the three kinds
-- of point share.
theorem sound_of (c : Dev nD) (t : Fin cfg0.N) (O'' : sProp 𝕄) (h4 : (dats m 0 c).leavesExact 4 t = O'')
    (h : iprop((dats m 0 c).Φ t.castSucc ∗ (dats m 0 c).owesAt () t.castSucc
          ∗ (∃ d : Vec F S1x1x32x160x160 .f32, holds c (ms0_0 t) (iblk m c 0 t)) ∗ (∃ d : Vec F S1x1x32x160x160 .f32, holds c (ms0_1 t) (iblk m c 1 t))
          ∗ (∃ d : Vec F S1x1x1x160x160 .f32, holds c (ms0_2 t) (iblk m c 2 t)) ∗ (∃ d : Vec F S1x1x1x160x160 .f32, holds c (ms0_3 t) (iblk m c 3 t))
          ∗ (∃ d, holds c (ms0_4 t) ((dats m 0 c).before 4 t d)))
        ⊢ wp frame (wpE (defs₀ (F := F)) Variants.none c none) Set.univ (bodyAt0 t) (fun _ => iprop(iprop(heldAt c (outsAt0 m c t.val t.isLt) ∗ (∃ r, prngReg c r))
          ∗ (dats m 0 c).owesAt () t.castSucc ∗ holds c (ms0_0 t) (iblk m c 0 t) ∗ holds c (ms0_1 t) (iblk m c 1 t) ∗ holds c (ms0_2 t) (iblk m c 2 t) ∗ holds c (ms0_3 t) (iblk m c 3 t) ∗ O''))) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl,
    show (dats m 0 c).Φ t.succ = iprop(heldAt c (outsAt0 m c t.val t.isLt) ∗ (∃ r, prngReg c r)) from rfl,
    show (dats m 0 c).leavesExact 0 t = holds c (ms0_0 t) ((dats m 0 c).after 0 t) from by
      unfold Dat.leavesExact; rw [liveIn 0 t (by decide)], after0_0,
    show (dats m 0 c).leavesExact 1 t = holds c (ms0_1 t) ((dats m 0 c).after 1 t) from by
      unfold Dat.leavesExact; rw [liveIn 1 t (by decide)], after0_1,
    show (dats m 0 c).leavesExact 2 t = holds c (ms0_2 t) ((dats m 0 c).after 2 t) from by
      unfold Dat.leavesExact; rw [liveIn 2 t (by decide)], after0_2,
    show (dats m 0 c).leavesExact 3 t = holds c (ms0_3 t) ((dats m 0 c).after 3 t) from by
      unfold Dat.leavesExact; rw [liveIn 3 t (by decide)], after0_3,
    h4]
  exact h

abbrev WPb (c : Dev nD) (t : Fin cfg0.N) (E : Set ℕ) (K : PUnit → sProp 𝕄) : sProp 𝕄 := wp frame (wpE (defs₀ (F := F)) Variants.none c none) E (bodyAt0 t) K

end Cert.Kernel.Frm

end
-- ==== Proof.K.CarryB.lean ====
import proofs.«415577_j83279415869695_3_alg».proof.Proof.K.Base

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- Around the body's triple: the carried buffers P and the five blocks go in; what the body leaves, Q in the carried
-- buffers and Oq in the output block, comes back in the form R', O' that is asked for.
theorem oblig {WP : Set ℕ → (PUnit → sProp 𝕄) → sProp 𝕄} {X D0 D1 D2 D3 : Type} {A0 A1 A2 A3 O' O'' P Q R R' G owes : sProp 𝕄}
    {Oin O Oq : X → sProp 𝕄} (hR : R' = R) (hO' : O' = O'') (hO : ∀ x, Oin x ⊢ O x) (hOq : ∀ x, Oq x ⊢ O'') (hQ : Q ⊢ R)
    (hrun : ∀ x E K, iprop(A0 ∗ A1 ∗ A2 ∗ A3 ∗ O x ∗ P ∗ (iprop(A0 ∗ A1 ∗ A2 ∗ A3 ∗ Oq x ∗ Q) -∗ K ⟨⟩)) ⊢ WP E K) :
    iprop(iprop(P ∗ G) ∗ owes ∗ (∃ d : D0, A0) ∗ (∃ d : D1, A1) ∗ (∃ d : D2, A2) ∗ (∃ d : D3, A3) ∗ (∃ x, Oin x))
      ⊢ WP Set.univ (fun _ => iprop(iprop(R' ∗ G) ∗ owes ∗ A0 ∗ A1 ∗ A2 ∗ A3 ∗ O')) := by
  subst hR hO'
  iintro ⟨⟨HP, Hg⟩, Ho, ⟨%d0, H0⟩, ⟨%d1, H1⟩, ⟨%d2, H2⟩, ⟨%d3, H3⟩, ⟨%x, H4⟩⟩
  iapply (hrun x Set.univ _)
  isplitl [H0]; · iexact H0
  isplitl [H1]; · iexact H1
  isplitl [H2]; · iexact H2
  isplitl [H3]; · iexact H3
  isplitl [H4]; · iapply (hO x); iexact H4
  isplitl [HP]; · iexact HP
  iintro ⟨H0, H1, H2, H3, H4, HQ⟩
  isplitl [HQ Hg]
  · isplitl [HQ]; · iapply hQ; iexact HQ
    iexact Hg
  isplitl [Ho]; · iexact Ho
  isplitl [H0]; · iexact H0
  isplitl [H1]; · iexact H1
  isplitl [H2]; · iexact H2
  isplitl [H3]; · iexact H3
  iapply (hOq x); iexact H4

end Cert.Kernel.Frm

end
-- ==== Proof.K.SoundFirst.lean ====
import proofs.«415577_j83279415869695_3_alg».proof.Proof.K.Data2
import proofs.«415577_j83279415869695_3_alg».proof.Proof.K.CarryB

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- A FIRST point takes the carried buffers at anything: nothing yet, or the previous batch item's sums.
set_option maxHeartbeats 1600000 in
theorem sound_first (c : Dev nD) (t : Fin cfg0.N) (h0 : t.val % 5 = 0) :
    bodyPre m c t ⊢ wp frame (wpE (defs₀ (F := F)) Variants.none c none) Set.univ (bodyAt0 t) (fun _ => bodyPost m c t) := by
  have hc1 : ¬condLast (grid0.coords t) := fun h => absurd ((hcondLast t).mp h) (by omega)
  refine sound_of m c t _ (Dat.leavesExact_idle (dats m 0 c) 4 t (idleOut t hc1).1 (idleOut t hc1).2) ?_
  refine (sep_mono_l (Phi_start m c t)).trans ?_
  rw [PhiA0_eq]
  refine oblig (WP := WPb c t) (O := fun d => holds c (ms0_4 t) ((dats m 0 c).before 4 t d))
    (Oq := fun d => holds c (ms0_4 t) ((dats m 0 c).before 4 t d)) (congrArg (heldAt c) (outsAt0_first m c t h0)) rfl (fun _ => .rfl)
    (fun d => exists_intro (Φ := fun d => holds c (ms0_4 t) ((dats m 0 c).before 4 t d)) d) ?_
    (fun d => (runFirstAt m c t h0).2.2.2.2.2.2.2.2.2.2.2.2.2 ((dats m 0 c).before 4 t d))
  exact BI.sep_mono (wrote_back (F := F) c scM0 scM0.view (runFirstAt m c t h0).2.1 (by sl_kernel_rfl))
    (BI.sep_mono (wrote_back (F := F) c scM1 scM1.view (runFirstAt m c t h0).2.2.1 (by sl_kernel_rfl))
    (BI.sep_mono (wrote_back (F := F) c scM2 scM2.view (runFirstAt m c t h0).2.2.2.1 (by sl_kernel_rfl))
    (BI.sep_mono (wrote_back (F := F) c scM3 scM3.view (runFirstAt m c t h0).2.2.2.2.1 (by sl_kernel_rfl))
    (BI.sep_mono (wrote_back (F := F) c scM4 scM4.view (runFirstAt m c t h0).2.2.2.2.2.1 (by sl_kernel_rfl))
    (BI.sep_mono (wrote_back (F := F) c scM5 scM5.view (runFirstAt m c t h0).2.2.2.2.2.2.1 (by sl_kernel_rfl))
    (BI.sep_mono (wrote_back (F := F) c scM6 scM6.view (runFirstAt m c t h0).2.2.2.2.2.2.2.1 (by sl_kernel_rfl))
    (BI.sep_mono (wrote_back (F := F) c scM7 scM7.view (runFirstAt m c t h0).2.2.2.2.2.2.2.2.1 (by sl_kernel_rfl))
    (BI.sep_mono (wrote_back (F := F) c scM8 scM8.view (runFirstAt m c t h0).2.2.2.2.2.2.2.2.2.1 (by sl_kernel_rfl))
    (BI.sep_mono (wrote_back (F := F) c scM9 scM9.view (runFirstAt m c t h0).2.2.2.2.2.2.2.2.2.2.1 (by sl_kernel_rfl))
    (BI.sep_mono (wrote_back (F := F) c scM10 scM10.view (runFirstAt m c t h0).2.2.2.2.2.2.2.2.2.2.2.1 (by sl_kernel_rfl))
    ((wrote_back (F := F) c scM11 scM11.view (runFirstAt m c t h0).2.2.2.2.2.2.2.2.2.2.2.2.1 (by sl_kernel_rfl)))))))))))))

end Cert.Kernel.Frm

end
-- ==== Proof.K.SoundMid.lean ====
import proofs.«415577_j83279415869695_3_alg».proof.Proof.K.Data2
import proofs.«415577_j83279415869695_3_alg».proof.Proof.K.CarryB

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- A MID point takes them at what the point before left and hands the fifth and sixth back untouched.
set_option maxHeartbeats 1600000 in
theorem sound_mid (c : Dev nD) (t : Fin cfg0.N) (h0 : ¬t.val % 5 = 0) (h4 : ¬t.val % 5 = 4) :
    bodyPre m c t ⊢ wp frame (wpE (defs₀ (F := F)) Variants.none c none) Set.univ (bodyAt0 t) (fun _ => bodyPost m c t) := by
  have hc1 : ¬condLast (grid0.coords t) := fun h => h4 ((hcondLast t).mp h)
  refine sound_of m c t _ (Dat.leavesExact_idle (dats m 0 c) 4 t (idleOut t hc1).1 (idleOut t hc1).2) ?_
  rw [PhiS_castSucc m c t, PhiS_pos m c _ _ (by omega)]
  refine oblig (WP := WPb c t) (O := fun d => holds c (ms0_4 t) ((dats m 0 c).before 4 t d))
    (Oq := fun d => holds c (ms0_4 t) ((dats m 0 c).before 4 t d)) (congrArg (heldAt c) (outsAt0_mid m c t h0 h4)) rfl (fun _ => .rfl)
    (fun d => exists_intro (Φ := fun d => holds c (ms0_4 t) ((dats m 0 c).before 4 t d)) d) ?_
    (fun d => (runMidAt m c t h0 h4 (outsAt0 m c (t.val - 1) (Nat.lt_of_le_of_lt (Nat.sub_le _ _) t.isLt))).2.2.2.2.2.2.2.2.2.2.2.2.2 ((dats m 0 c).before 4 t d))
  exact BI.sep_mono (wrote_back (F := F) c scM0 scM0.view (runMidAt m c t h0 h4 (outsAt0 m c (t.val - 1) (Nat.lt_of_le_of_lt (Nat.sub_le _ _) t.isLt))).2.1 (by sl_kernel_rfl))
    (BI.sep_mono (wrote_back (F := F) c scM1 scM1.view (runMidAt m c t h0 h4 (outsAt0 m c (t.val - 1) (Nat.lt_of_le_of_lt (Nat.sub_le _ _) t.isLt))).2.2.1 (by sl_kernel_rfl))
    (BI.sep_mono (wrote_back (F := F) c scM2 scM2.view (runMidAt m c t h0 h4 (outsAt0 m c (t.val - 1) (Nat.lt_of_le_of_lt (Nat.sub_le _ _) t.isLt))).2.2.2.1 (by sl_kernel_rfl))
    (BI.sep_mono (wrote_back (F := F) c scM3 scM3.view (runMidAt m c t h0 h4 (outsAt0 m c (t.val - 1) (Nat.lt_of_le_of_lt (Nat.sub_le _ _) t.isLt))).2.2.2.2.1 (by sl_kernel_rfl))
    (BI.sep_mono (Entails.refl _)
    (BI.sep_mono (Entails.refl _)
    (BI.sep_mono (wrote_back (F := F) c scM6 scM6.view (runMidAt m c t h0 h4 (outsAt0 m c (t.val - 1) (Nat.lt_of_le_of_lt (Nat.sub_le _ _) t.isLt))).2.2.2.2.2.2.2.1 (by sl_kernel_rfl))
    (BI.sep_mono (wrote_back (F := F) c scM7 scM7.view (runMidAt m c t h0 h4 (outsAt0 m c (t.val - 1) (Nat.lt_of_le_of_lt (Nat.sub_le _ _) t.isLt))).2.2.2.2.2.2.2.2.1 (by sl_kernel_rfl))
    (BI.sep_mono (wrote_back (F := F) c scM8 scM8.view (runMidAt m c t h0 h4 (outsAt0 m c (t.val - 1) (Nat.lt_of_le_of_lt (Nat.sub_le _ _) t.isLt))).2.2.2.2.2.2.2.2.2.1 (by sl_kernel_rfl))
    (BI.sep_mono (wrote_back (F := F) c scM9 scM9.view (runMidAt m c t h0 h4 (outsAt0 m c (t.val - 1) (Nat.lt_of_le_of_lt (Nat.sub_le _ _) t.isLt))).2.2.2.2.2.2.2.2.2.2.1 (by sl_kernel_rfl))
    (BI.sep_mono (wrote_back (F := F) c scM10 scM10.view (runMidAt m c t h0 h4 (outsAt0 m c (t.val - 1) (Nat.lt_of_le_of_lt (Nat.sub_le _ _) t.isLt))).2.2.2.2.2.2.2.2.2.2.2.1 (by sl_kernel_rfl))
    ((wrote_back (F := F) c scM11 scM11.view (runMidAt m c t h0 h4 (outsAt0 m c (t.val - 1) (Nat.lt_of_le_of_lt (Nat.sub_le _ _) t.isLt))).2.2.2.2.2.2.2.2.2.2.2.2.1 (by sl_kernel_rfl)))))))))))))

end Cert.Kernel.Frm

end
-- ==== Proof.K.SoundLast.lean ====
import proofs.«415577_j83279415869695_3_alg».proof.Proof.K.Data2
import proofs.«415577_j83279415869695_3_alg».proof.Proof.K.CarryB

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- A LAST point also stores the output block, taken at anything.
set_option maxHeartbeats 1600000 in
theorem sound_last (c : Dev nD) (t : Fin cfg0.N) (h0 : ¬t.val % 5 = 0) (h4 : t.val % 5 = 4) :
    bodyPre m c t ⊢ wp frame (wpE (defs₀ (F := F)) Variants.none c none) Set.univ (bodyAt0 t) (fun _ => bodyPost m c t) := by
  refine sound_of m c t (holds c (ms0_4 t) ((dats m 0 c).after 4 t)) (by
    unfold Dat.leavesExact; rw [liveOut t ((hcondLast t).mpr h4)]) ?_
  rw [PhiS_castSucc m c t, PhiS_pos m c _ _ (by omega)]
  refine oblig (WP := WPb c t) (O := fun _ => anyAt c (ms0_4 t)) (Oq := fun _ => wrote c (ms0_4 t) (runLastAt m c t h0 h4 (outsAt0 m c (t.val - 1) (Nat.lt_of_le_of_lt (Nat.sub_le _ _) t.isLt))).1)
    (congrArg (heldAt c) (outsAt0_last m c t h0 h4)) (congrArg (holds c (ms0_4 t)) ((after0_4 m c t).trans (congrArg Held.out (outsAt0_last m c t h0 h4))))
    (fun _ => holds_any c _ _) (fun _ => wrote_back (F := F) c (ms0_4 t) VO4 (runLastAt m c t h0 h4 (outsAt0 m c (t.val - 1) (Nat.lt_of_le_of_lt (Nat.sub_le _ _) t.isLt))).1 (by sl_kernel_rfl)) ?_
    (fun _ => (runLastAt m c t h0 h4 (outsAt0 m c (t.val - 1) (Nat.lt_of_le_of_lt (Nat.sub_le _ _) t.isLt))).2.2.2.2.2.2.2.2.2.2.2.2.2)
  exact BI.sep_mono (wrote_back (F := F) c scM0 scM0.view (runLastAt m c t h0 h4 (outsAt0 m c (t.val - 1) (Nat.lt_of_le_of_lt (Nat.sub_le _ _) t.isLt))).2.1 (by sl_kernel_rfl))
    (BI.sep_mono (wrote_back (F := F) c scM1 scM1.view (runLastAt m c t h0 h4 (outsAt0 m c (t.val - 1) (Nat.lt_of_le_of_lt (Nat.sub_le _ _) t.isLt))).2.2.1 (by sl_kernel_rfl))
    (BI.sep_mono (wrote_back (F := F) c scM2 scM2.view (runLastAt m c t h0 h4 (outsAt0 m c (t.val - 1) (Nat.lt_of_le_of_lt (Nat.sub_le _ _) t.isLt))).2.2.2.1 (by sl_kernel_rfl))
    (BI.sep_mono (wrote_back (F := F) c scM3 scM3.view (runLastAt m c t h0 h4 (outsAt0 m c (t.val - 1) (Nat.lt_of_le_of_lt (Nat.sub_le _ _) t.isLt))).2.2.2.2.1 (by sl_kernel_rfl))
    (BI.sep_mono (wrote_back (F := F) c scM4 scM4.view (runLastAt m c t h0 h4 (outsAt0 m c (t.val - 1) (Nat.lt_of_le_of_lt (Nat.sub_le _ _) t.isLt))).2.2.2.2.2.1 (by sl_kernel_rfl))
    (BI.sep_mono (wrote_back (F := F) c scM5 scM5.view (runLastAt m c t h0 h4 (outsAt0 m c (t.val - 1) (Nat.lt_of_le_of_lt (Nat.sub_le _ _) t.isLt))).2.2.2.2.2.2.1 (by sl_kernel_rfl))
    (BI.sep_mono (wrote_back (F := F) c scM6 scM6.view (runLastAt m c t h0 h4 (outsAt0 m c (t.val - 1) (Nat.lt_of_le_of_lt (Nat.sub_le _ _) t.isLt))).2.2.2.2.2.2.2.1 (by sl_kernel_rfl))
    (BI.sep_mono (wrote_back (F := F) c scM7 scM7.view (runLastAt m c t h0 h4 (outsAt0 m c (t.val - 1) (Nat.lt_of_le_of_lt (Nat.sub_le _ _) t.isLt))).2.2.2.2.2.2.2.2.1 (by sl_kernel_rfl))
    (BI.sep_mono (wrote_back (F := F) c scM8 scM8.view (runLastAt m c t h0 h4 (outsAt0 m c (t.val - 1) (Nat.lt_of_le_of_lt (Nat.sub_le _ _) t.isLt))).2.2.2.2.2.2.2.2.2.1 (by sl_kernel_rfl))
    (BI.sep_mono (wrote_back (F := F) c scM9 scM9.view (runLastAt m c t h0 h4 (outsAt0 m c (t.val - 1) (Nat.lt_of_le_of_lt (Nat.sub_le _ _) t.isLt))).2.2.2.2.2.2.2.2.2.2.1 (by sl_kernel_rfl))
    (BI.sep_mono (wrote_back (F := F) c scM10 scM10.view (runLastAt m c t h0 h4 (outsAt0 m c (t.val - 1) (Nat.lt_of_le_of_lt (Nat.sub_le _ _) t.isLt))).2.2.2.2.2.2.2.2.2.2.2.1 (by sl_kernel_rfl))
    ((wrote_back (F := F) c scM11 scM11.view (runLastAt m c t h0 h4 (outsAt0 m c (t.val - 1) (Nat.lt_of_le_of_lt (Nat.sub_le _ _) t.isLt))).2.2.2.2.2.2.2.2.2.2.2.2.1 (by sl_kernel_rfl)))))))))))))

end Cert.Kernel.Frm

end
-- ==== Proof.K.Launch.lean ====
import proofs.«415577_j83279415869695_3_alg».proof.Proof.K.Data2
import Idealize.ShloMosaic.Lib.Pipeline.FrameSuffix

noncomputable section

namespace Cert.Kernel.Frm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev adm : (p : Fin 1) → (pcfgs (F := F) p).Adm := fun p => (cfgs p).toPCfg_adm

theorem arrRefs_eq : Finset.univ.image (Pipeline.arrRef spec0) = {main_arg0, main_arg1, main_v0} := by decide

-- The five windows unfold one by one; each window's array is its whole buffer, an input at a half share.
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg1) ↦{fullShare.left} G 1)
          ∗ (((c : Thread nD τ).loc main_arg0) ↦{fullShare.right} G 2) ∗ (((c : Thread nD τ).loc main_arg1) ↦{fullShare.right} G 3)
          ∗ (((c : Thread nD τ).loc main_v0) ↦{fullShare} G 4)) := by
  unfold Dat.arrays Dat.share
  rw [bigSep_W0, (arr_whole0 0).set_eq_univ, (arr_whole0 1).set_eq_univ, (arr_whole0 4).set_eq_univ, q_eq, q_eq, q_eq, q_eq]
  rfl

theorem arrBufs_chain (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  rw [arrRefs_eq, BI.bigSep_insert (by decide), BI.bigSep_insert (by decide), BI.bigSep_singleton]
  rfl

-- A whole buffer splits into its two halves at the same contents.
theorem hsplit (c : Dev nD) :
    (Pipeline.arrBufs spec0 c (V m c) : sProp 𝕄) ⊢ (dats m 0 c).arrays (dats m 0 c).A := by
  rw [arrays_chain, arrBufs_chain, A_eq, A_eq, A_eq, A_eq, A_eq]
  iintro ⟨H0, H1, H4⟩
  icases (pointsTo_share (PosShare.mem_left_op_right fullShare)).1 $$ H0 with ⟨H0l, H0r⟩
  icases (pointsTo_share (PosShare.mem_left_op_right fullShare)).1 $$ H1 with ⟨H1l, H1r⟩
  iframe

abbrev restSet : Finset (Ref sig .tc) :=
  (Finset.univ.filter fun b : Ref sig .tc => ¬ b.isScoped) \ Finset.univ.image (Pipeline.arrRef spec0)

def tailSet : Finset (Ref sig .tc) := insert main_v0 restSet

def tailDev : Finset (DevRef τ sig) := tailSet.map ⟨Proc.devRef (sig := sig) (.tc : Proc τ), Proc.devRef_injective _⟩

theorem v0_not_rest : main_v0 ∉ restSet := by decide

theorem mem_tailDev {b : Ref sig .tc} : no_index (Proc.devRef .tc b) ∈ tailDev ↔ b ∈ tailSet := Finset.mem_map' _

theorem held_tail (c : Dev nD) (W : Valuation τ sig (Elt F)) :
    (StableHlo.held (c : Thread nD τ) tailDev W : sProp 𝕄)
      = iprop((((c : Thread nD τ).loc main_v0) ↦{fullShare} W (Proc.devRef .tc main_v0))
          ∗ Pipeline.unscopedRest spec0 c (fun b => W (Proc.devRef .tc b))) := by
  unfold StableHlo.held tailDev tailSet Pipeline.unscopedRest
  rw [bigSep_map, BI.bigSep_insert v0_not_rest]
  rfl

-- Each operation's buffers are a literal set of references, each one in the set, and it allocates nothing.
theorem hostOps1_within : ∀ op ∈ hostOps1 (F := F), op.bufs ⊆ tailDev ∧ op.fresh = ∅ := by
  simp only [List.forall_mem_cons, List.not_mem_nil, false_imp_iff, implies_true, and_true,
    StableHlo.reshape_bufs, StableHlo.nullary_bufs, StableHlo.unary_bufs, StableHlo.binary_bufs,
    Finset.insert_subset_iff, Finset.singleton_subset_iff, mem_tailDev]
  and_intros <;> first | rfl | decide

def exitVal (c : Dev nD) (o : Buf (Elt F) ((c : Thread nD τ).loc main_v0)) : Valuation τ sig (Elt F) :=
  Function.update (fun b => m ((c : Dev nD), b)) (Proc.devRef .tc main_v0) o

def hostTail (c : Dev nD) (o : Buf (Elt F) ((c : Thread nD τ).loc main_v0)) : Buf (Elt F) ((c : Thread nD τ).loc main_v29) :=
  StableHlo.after hostOps1 (exitVal m c o) (Proc.devRef .tc main_v29)

theorem exitVal_out (c : Dev nD) (o : Buf (Elt F) ((c : Thread nD τ).loc main_v0)) :
    exitVal m c o (Proc.devRef .tc main_v0) = o := by
  unfold exitVal; exact Function.update_self _ _ _

-- No operation's result is the output array.
theorem after_out (W : Valuation τ sig (Elt F)) :
    StableHlo.after (hostOps1 (F := F)) W (Proc.devRef .tc main_v0) = W (Proc.devRef .tc main_v0) := by
  after_results

abbrev endRest (c : Dev nD) (o : Buf (Elt F) ((c : Thread nD τ).loc main_v0)) : sProp 𝕄 :=
  Pipeline.unscopedRest spec0 c (fun b => StableHlo.after hostOps1 (exitVal m c o) (Proc.devRef .tc b))

-- Away from the output array the exit valuation is the launch contents.
theorem rest_exit (c : Dev nD) (o : Buf (Elt F) ((c : Thread nD τ).loc main_v0)) :
    (Pipeline.unscopedRest spec0 c (fun b => exitVal m c o (Proc.devRef .tc b)) : sProp 𝕄) = Pipeline.unscopedRest spec0 c (V m c) :=
  bigSep_congr fun b hb => by
    beta_reduce; unfold exitVal
    rw [Function.update_of_ne (StableHlo.devRef_ne_of_ne fun e : b = main_v0 => v0_not_rest (e ▸ hb))]

-- The operations run holding the output array and the buffers that are no window's array; the arguments' half shares are framed.
theorem htail (c : Dev nD) (Q' : PUnit → sProp 𝕄) :
    iprop((iprop((dats m 0 c).arrays ((dats m 0 c).arrAt · cfg0.N) ∗ endRest m c ((dats m 0 c).arrAt 4 cfg0.N)) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c : Thread nD τ) none) Set.univ
          (Pipeline.chain [StableHlo.seq hostOps1]) Q' := by
  have hrun := Pipeline.wp_seqs_then (Ix := Unit) (Name := ℕ) (U := UR sig nD τ) (Lvl := ℕ) (pcfgs (F := F)) defs₀ Variants.none c tailDev []
    (K := Q') [hostOps1]
    (fun ops ho op h => (hostOps1_within op (List.mem_singleton.mp ho ▸ h)).1)
    (fun ops ho op h => (hostOps1_within op (List.mem_singleton.mp ho ▸ h)).2)
    (exitVal m c ((dats m 0 c).arrAt 4 cfg0.N))
  simp only [List.map_cons, List.map_nil, List.append_nil, List.flatten_cons, List.flatten_nil] at hrun
  rw [held_tail, held_tail, after_out, exitVal_out, rest_exit] at hrun
  rw [arrays_chain]
  iintro ⟨Hk, Hbd, ⟨H0, H1, H2, H3, H4⟩, HZ⟩
  iapply hrun $$ [Hbd H4 HZ]
  · iframe
  iintro ⟨Hbd, H4, HZ⟩
  rw [Pipeline.chain_nil, wp_pure]; imodintro
  iapply Hk
  iframe

set_option backward.isDefEq.respectTransparency.types false in
-- Both arguments come back as launched; the result is the host operations' fold over the output array the region left.
theorem run_main_of (hbody : ∀ c : Dev nD, BodyObligation (dats m 0 c) (defs₀ (F := F)) Variants.none () Set.univ) (ρ : Dev nD → PrngReg) :
    θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v29) = hostTail m c ((dats m 0 c).arrAt 4 cfg0.N)) := by
  classical
  exact Pipeline.θ_run_region_pf_tail (pcfgs (F := F)) adm (dats m) () cellOf_inj 0 winFacts₀0 (Pipeline.OwnSemFacts.none spec0)
    (Pipeline.PreFacts.none _) emb₁ defs₀ Variants.none m ρ main (fun _ => Pipeline.chain [StableHlo.seq hostOps1])
    (fun c => (hbody c).loose) block_pos0 arr_whole0 stage_whole0 (fun c t => owed_eq m c t)
    (G := fun _ => iprop(emp)) (u₀ := initOf (Pipeline.cells (Pipeline.pin pcfgs adm) cellOf_inj) (Pipeline.launchToks (Pipeline.pin pcfgs adm) cellOf_inj))
    (hu₀ := by
      iintro Hu; imodintro
      isplitl [Hu]; · iapply (show (ownU _ : sProp 𝕄) ⊢ BI.own (emb₁ (initOf (Pipeline.cells (Pipeline.pin pcfgs adm) cellOf_inj) (Pipeline.launchToks (Pipeline.pin pcfgs adm) cellOf_inj))) from .rfl); iexact Hu
      iapply (show (BI.emp : sProp 𝕄) ⊢ bigSep Finset.univ (fun _ : Dev nD => (BI.emp : sProp 𝕄)) from by rw [BI.bigSep_emp_const])
      iempintro)
    (V := V m)
    (hmain := fun c Q => by
      rw [main_chain c]
      simp only [Pipeline.chain_cons]
      iintro ⟨Hk, Hb⟩
      iapply Hk; iexact Hb)
    (hsplit := hsplit m)
    (hpf := fun _ k => k.elim0)
    (X := fun c => iprop(∃ r, prngReg c r)) (Y := fun c => iprop(∃ r, prngReg c r))
    (Z := fun c => Pipeline.unscopedRest spec0 c (V m c))
    (Z' := fun c => endRest m c ((dats m 0 c).arrAt 4 cfg0.N))
    (hX := fun c => by
      rw [Pipeline.unscopedRestP_none]
      iintro ⟨HU, -, -, -, Hp, -⟩; imodintro
      isplitl [Hp]; · iexists _; iexact Hp
      iexact HU)
    (hin := fun c => (show _ ⊢ (Pipeline.ΦA spec0 c : sProp 𝕄) by
      unfold Pipeline.ΦA; iintro ⟨Hp, -, Hr⟩; iframe).trans (hin m c))
    (hout := fun c => (hout m c).trans (by
      rw [Pipeline.ownSems0_none]; unfold Pipeline.ΦA
      iintro ⟨Hr, Hp⟩; iframe; iempintro))
    (htail := htail m)
    (QY := fun c s => s.mem ((c : Thread nD τ).loc main_v29) = hostTail m c ((dats m 0 c).arrAt 4 cfg0.N))
    (hY := fun c s' => by
      unfold endRest Pipeline.unscopedRest
      iintro ⟨-, HZ, HSI⟩
      icases (pointsTo_read_all restSet (fun b => (c : Thread nD τ).loc b)
        (fun b => StableHlo.after hostOps1 (exitVal m c ((dats m 0 c).arrAt 4 cfg0.N)) (Proc.devRef .tc b)) s') $$ [HZ HSI] with ⟨%hr, HSI⟩
      · iframe
      imodintro
      isplitr; · ipureintro; exact hr main_v29 (by decide)
      iexact HSI)
    (hQ := fun s h c => by
      obtain ⟨ha, -, hy⟩ := h c
      exact ⟨(ha 0).trans (((dats m 0 c).arrAt_in 0 (by decide) _).trans (A_eq m c 0)),
        (ha 1).trans (((dats m 0 c).arrAt_in 1 (by decide) _).trans (A_eq m c 1)), hy⟩)

end Cert.Kernel.Frm

end
-- ==== Proof.K.RunMain.lean ====
import proofs.«415577_j83279415869695_3_alg».proof.Proof.K.SoundFirst
import proofs.«415577_j83279415869695_3_alg».proof.Proof.K.SoundMid
import proofs.«415577_j83279415869695_3_alg».proof.Proof.K.SoundLast
import proofs.«415577_j83279415869695_3_alg».proof.Proof.K.Launch

noncomputable section

namespace Cert.Kernel.Frm

open Idealize.ShloMosaic Idealize.ShloMosaic.TcCoe
open Idealize.SL Idealize.SL.Sem
open Idealize.ShloMosaic.Pipeline (BodyObligation)
open Cert.Kernel Cert.Kernel.Gen

variable {F : FTy → Type} [FloatOps F] (m : (ℓ : Loc nD τ sig) → Buf (Elt F) ℓ)

-- A point is FIRST, MID or LAST according to t % 5, and each kind has its run.
theorem body_obligation (c : Dev nD) : BodyObligation (dats (F := F) m 0 c) (defs₀ (F := F)) Variants.none () Set.univ := fun t => by
  rw [bigSep_W0, bigSep_W0]
  by_cases h0 : t.val % 5 = 0
  · exact sound_first m c t h0
  · by_cases h4 : t.val % 5 = 4
    · exact sound_last m c t h0 h4
    · exact sound_mid m c t h0 h4

-- From any memory with zero counters every weakly fair execution of @main terminates holding both arguments as launched
-- and, in the result's buffer, the host operations' fold over the output array the region left.
theorem run_main (ρ : Dev nD → PrngReg) :
    θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v29) = hostTail m c ((dats m 0 c).arrAt 4 cfg0.N)) :=
  run_main_of m (body_obligation m) ρ

end Cert.Kernel.Frm

end
-- ==== Proof.KI.Base.lean ====
import proofs.«415577_j83279415869695_3_alg».proof.Proof.Gen.KernelIdeal.Launch
import proofs.«415577_j83279415869695_3_alg».proof.Proof.Gen.KernelIdeal.Skeleton
import proofs.«415577_j83279415869695_3_alg».proof.Proof.Gen.KernelIdeal.Points
import Idealize.ShloMosaic.Lib.Pipeline.FrameBody
import Idealize.ShloMosaic.Lib.Tactic
import Idealize.ShloMosaic.Lib.Ring

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

abbrev V (c : Dev nD) (b : Ref sig .tc) : Buf (Elt F) ((c : Thread nD τ).loc b) := m ((c : Thread nD τ).loc b)

-- Window w's block at point t, read off its array.
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

-- The body branches on the second grid coordinate being 0 (reset) and being 4 (finish).
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 5 = 0 :=
  (by decide +kernel : ∀ t : Fin grid0.N, condFirst (grid0.coords t) ↔ t.val % 5 = 0)
abbrev condLast (i : grid0.Coords) : Prop := k0_cond2 i = 1#1
theorem hcondLast : ∀ t : Fin cfg0.N, condLast (grid0.coords t) ↔ t.val % 5 = 4 :=
  (by decide +kernel : ∀ t : Fin grid0.N, condLast (grid0.coords t) ↔ t.val % 5 = 4)

theorem liveIn : ∀ (w : Fin cfg0.W) (t : Fin cfg0.N), w.val < 4 → cfg0.idle w (grid0.coords t) = false := by decide +kernel
theorem idleOut : ∀ t : Fin cfg0.N, ¬condLast (grid0.coords t) → cfg0.idle 4 (grid0.coords t) = true ∧ (cfg0.win 4).flush t = false := by decide +kernel
theorem liveOut : ∀ t : Fin cfg0.N, condLast (grid0.coords t) → cfg0.idle 4 (grid0.coords t) = false := by decide +kernel

abbrev ms0_0 (t : Fin cfg0.N) : Memref sig .tc .vmem S1x1x32x160x160 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32x160x160 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x160x160 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1x160x160 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x6 .f32 := win0_4.stage (cfg0.slots t 4)
abbrev hs0_4 (t : Fin cfg0.N) : (ms0_4 t).IsWhole := hstage0_4 ((cfg0.slots t 4).cast nbuf0_4)

abbrev scM0 : Memref sig .tc .vmem S1x1 .f32 := Memref.whole cc0_scratch0
abbrev scM1 : Memref sig .tc .vmem S1x1 .f32 := Memref.whole cc0_scratch1
abbrev scM2 : Memref sig .tc .vmem S1x1 .f32 := Memref.whole cc0_scratch2
abbrev scM3 : Memref sig .tc .vmem S1x1 .f32 := Memref.whole cc0_scratch3
abbrev scM4 : Memref sig .tc .vmem S1x1 .f32 := Memref.whole cc0_scratch4
abbrev scM5 : Memref sig .tc .vmem S1x1 .f32 := Memref.whole cc0_scratch5
abbrev scM6 : Memref sig .tc .vmem S160x160 .f32 := Memref.whole cc0_scratch6
abbrev scM7 : Memref sig .tc .vmem S160x160 .f32 := Memref.whole cc0_scratch7
abbrev scM8 : Memref sig .tc .vmem S160x160 .f32 := Memref.whole cc0_scratch8
abbrev scM9 : Memref sig .tc .vmem S160x160 .f32 := Memref.whole cc0_scratch9
abbrev scM10 : Memref sig .tc .vmem S160x160 .f32 := Memref.whole cc0_scratch10
abbrev scM11 : Memref sig .tc .vmem S160x160 .f32 := Memref.whole cc0_scratch11

-- What the output block and the twelve carried buffers hold after a point.
structure Held (F : FTy → Type) where
  out : Vec F S1x1x6 .f32
  (a0 a1 a2 a3 a4 a5 : Vec F S1x1 .f32)
  (b0 b1 b2 b3 b4 b5 : Vec F S160x160 .f32)

-- Pieces read back through a view over junk: what a buffer they cover holds.
abbrev readBack {s : Shape} {e : EltTy} (v : View sig .tc .vmem s e) (L : List (View.Piece (Elt F) s e)) : s.Idx → Elt F e :=
  v.read (Elt F) (v.writes (Elt F) v.junk L)

abbrev Pcs (F : FTy → Type) (s : Shape) : Type := List (View.Piece (Elt F) s .f32)

-- A buffer owned at given contents, at some contents, and after the stores L.
abbrev holds (c : Dev nD) {s : Shape} (M : Memref sig .tc .vmem s .f32) (v : Vec F s .f32) : sProp 𝕄 := owns (c : Thread nD τ) M fullShare v
abbrev anyAt (c : Dev nD) {s : Shape} (M : Memref sig .tc .vmem s .f32) : sProp 𝕄 := iprop(∃ d, holds c M d)
abbrev wrote (c : Dev nD) {s : Shape} (M : Memref sig .tc .vmem s .f32) (L : Pcs F s) : sProp 𝕄 :=
  iprop(∃ f, M.view.loc (c : Thread nD τ) ↦[M.view.set]{fullShare} M.view.writes (Elt F) f L)

theorem holds_any (c : Dev nD) {s : Shape} (M : Memref sig .tc .vmem s .f32) (v : Vec F s .f32) : holds c M v ⊢ anyAt c M :=
  exists_intro (Φ := fun d => holds c M d) v

-- Stores that tile a buffer leave it at their pieces read back, through any view.
theorem wrote_back (c : Dev nD) {s : Shape} (M : Memref sig .tc .vmem s .f32) (v : View sig .tc .vmem s .f32)
    (L : Pcs F s) (h : View.Piece.tiledL L s.size = true) : wrote c M L ⊢ holds c M (readBack v L) := by
  iintro ⟨%e, H⟩
  ihave H' := (Ring.owns_of_writes_tiledL v s.size) $$ H
  iapply H'; ipureintro; exact h

-- The twelve carried buffers at anything, and at the contents p.
abbrev anyAll (c : Dev nD) : sProp 𝕄 := iprop(anyAt c scM0 ∗ anyAt c scM1 ∗ anyAt c scM2 ∗ anyAt c scM3 ∗ anyAt c scM4 ∗ anyAt c scM5 ∗ anyAt c scM6 ∗ anyAt c scM7 ∗ anyAt c scM8 ∗ anyAt c scM9 ∗ anyAt c scM10 ∗ anyAt c scM11)
abbrev heldAt (c : Dev nD) (p : Held F) : sProp 𝕄 := iprop(holds c scM0 p.a0 ∗ holds c scM1 p.a1 ∗ holds c scM2 p.a2 ∗ holds c scM3 p.a3 ∗ holds c scM4 p.a4 ∗ holds c scM5 p.a5 ∗ holds c scM6 p.b0 ∗ holds c scM7 p.b1 ∗ holds c scM8 p.b2 ∗ holds c scM9 p.b3 ∗ holds c scM10 p.b4 ∗ holds c scM11 p.b5)

theorem PhiA0_eq (c : Dev nD) : (Pipeline.ΦA spec0 c : sProp 𝕄) = iprop(anyAll c ∗ (∃ r, prngReg c r)) := by
  unfold Pipeline.ΦA; rw [scopedRest0_eq]; simp only [anyAll, anyAt, holds, scM0, scM1, scM2, scM3, scM4, scM5, scM6, scM7, scM8, scM9, scM10, scM11, owns_whole]; try rfl

theorem held_any (c : Dev nD) (p : Held F) : heldAt c p ⊢ anyAll c := by
  repeat' refine BI.sep_mono ?_ ?_
  all_goals exact holds_any c _ _

end Cert.KernelIdeal.Frm

end
-- ==== Proof.KI.RunFirst.lean ====
import proofs.«415577_j83279415869695_3_alg».proof.Proof.KI.Base

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (arg2 arg3 : Memref sig .tc .vmem S1x1x32x160x160 .f32) (arg4 arg5 : Memref sig .tc .vmem S1x1x1x160x160 .f32)
  (arg6 : Memref sig .tc .vmem S1x1x6 .f32) (arg7 arg8 arg9 arg10 arg11 arg12 : Memref sig .tc .vmem S1x1 .f32)
  (arg13 arg14 arg15 arg16 arg17 arg18 : Memref sig .tc .vmem S160x160 .f32)
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole)
  (x0 x1 : Vec F S1x1x32x160x160 .f32) (x2 x3 : Vec F S1x1x1x160x160 .f32)

-- A FIRST point resets every carried buffer before reading it, and skips the finish: the output block is handed back.
set_option maxHeartbeats 4000000 in
noncomputable def kernelRunFirst (c : Dev nD) (i : grid0.Coords) (hc0 : condFirst i) (hc1 : ¬condLast i) :
    Σ' (L4 : Pcs F S1x1x6) (LS0 LS1 LS2 LS3 LS4 LS5 : Pcs F S1x1) (LS6 LS7 LS8 LS9 LS10 : Pcs F S160x160), { LS11 : Pcs F S160x160 //
      ∀ (xi4 : Vec F S1x1x6 .f32) (E : Set ℕ) (K : PUnit → sProp 𝕄),
        iprop(holds c arg2 x0 ∗ holds c arg3 x1 ∗ holds c arg4 x2 ∗ holds c arg5 x3 ∗ holds c arg6 xi4 ∗ iprop(anyAt c arg7 ∗ anyAt c arg8 ∗ anyAt c arg9 ∗ anyAt c arg10 ∗ anyAt c arg11 ∗ anyAt c arg12 ∗ anyAt c arg13 ∗ anyAt c arg14 ∗ anyAt c arg15 ∗ anyAt c arg16 ∗ anyAt c arg17 ∗ anyAt c arg18)
            ∗ (iprop(holds c arg2 x0 ∗ holds c arg3 x1 ∗ holds c arg4 x2 ∗ holds c arg5 x3 ∗ holds c arg6 xi4 ∗ iprop(wrote c arg7 LS0 ∗ wrote c arg8 LS1 ∗ wrote c arg9 LS2 ∗ wrote c arg10 LS3 ∗ wrote c arg11 LS4 ∗ wrote c arg12 LS5 ∗ wrote c arg13 LS6 ∗ wrote c arg14 LS7 ∗ wrote c arg15 LS8 ∗ wrote c arg16 LS9 ∗ wrote c arg17 LS10 ∗ wrote c arg18 LS11)) -∗ K ⟨⟩))
          ⊢ wp frame (wpE (defs₀ (F := F)) Variants.none c none) E (cc0__gploss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, ?_, ?_, ?_, ?_, ?_, ?_, ?_, ?_, ?_, ?_, fun xi4 E K => ?run⟩
  case run =>
    simp only [cc0__gploss_kernel_eq_skeleton]; unfold cc0__gploss_kernel_skel
    unfold anyAt wrote holds owns
    iintro ⟨⟨%f0, %hf0, H0⟩, ⟨%f1, %hf1, H1⟩, ⟨%f2, %hf2, H2⟩, ⟨%f3, %hf3, H3⟩, ⟨%f4, %hf4, H4⟩, ⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    iexists _; iexact HS11

end Cert.KernelIdeal.Frm

end
-- ==== Proof.KI.RunMid.lean ====
import proofs.«415577_j83279415869695_3_alg».proof.Proof.KI.Base

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (arg2 arg3 : Memref sig .tc .vmem S1x1x32x160x160 .f32) (arg4 arg5 : Memref sig .tc .vmem S1x1x1x160x160 .f32)
  (arg6 : Memref sig .tc .vmem S1x1x6 .f32) (arg7 arg8 arg9 arg10 arg11 arg12 : Memref sig .tc .vmem S1x1 .f32)
  (arg13 arg14 arg15 arg16 arg17 arg18 : Memref sig .tc .vmem S160x160 .f32)
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole)
  (x0 x1 : Vec F S1x1x32x160x160 .f32) (x2 x3 : Vec F S1x1x1x160x160 .f32)

-- A MID point takes neither branch: ten carried buffers are stored into, the fifth, the sixth and the output block handed back.
set_option maxHeartbeats 4000000 in
noncomputable def kernelRunMid (c : Dev nD) (i : grid0.Coords) (hc0 : ¬condFirst i) (hc1 : ¬condLast i) (p : Held F) :
    Σ' (L4 : Pcs F S1x1x6) (LS0 LS1 LS2 LS3 LS4 LS5 : Pcs F S1x1) (LS6 LS7 LS8 LS9 LS10 : Pcs F S160x160), { LS11 : Pcs F S160x160 //
      ∀ (xi4 : Vec F S1x1x6 .f32) (E : Set ℕ) (K : PUnit → sProp 𝕄),
        iprop(holds c arg2 x0 ∗ holds c arg3 x1 ∗ holds c arg4 x2 ∗ holds c arg5 x3 ∗ holds c arg6 xi4 ∗ iprop(holds c arg7 p.a0 ∗ holds c arg8 p.a1 ∗ holds c arg9 p.a2 ∗ holds c arg10 p.a3 ∗ holds c arg11 p.a4 ∗ holds c arg12 p.a5 ∗ holds c arg13 p.b0 ∗ holds c arg14 p.b1 ∗ holds c arg15 p.b2 ∗ holds c arg16 p.b3 ∗ holds c arg17 p.b4 ∗ holds c arg18 p.b5)
            ∗ (iprop(holds c arg2 x0 ∗ holds c arg3 x1 ∗ holds c arg4 x2 ∗ holds c arg5 x3 ∗ holds c arg6 xi4 ∗ iprop(wrote c arg7 LS0 ∗ wrote c arg8 LS1 ∗ wrote c arg9 LS2 ∗ wrote c arg10 LS3 ∗ holds c arg11 p.a4 ∗ holds c arg12 p.a5 ∗ wrote c arg13 LS6 ∗ wrote c arg14 LS7 ∗ wrote c arg15 LS8 ∗ wrote c arg16 LS9 ∗ wrote c arg17 LS10 ∗ wrote c arg18 LS11)) -∗ K ⟨⟩))
          ⊢ wp frame (wpE (defs₀ (F := F)) Variants.none c none) E (cc0__gploss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, ?_, ?_, [], [], ?_, ?_, ?_, ?_, ?_, ?_, fun xi4 E K => ?run⟩
  case run =>
    simp only [cc0__gploss_kernel_eq_skeleton]; unfold cc0__gploss_kernel_skel
    unfold wrote holds owns
    iintro ⟨⟨%f0, %hf0, H0⟩, ⟨%f1, %hf1, H1⟩, ⟨%f2, %hf2, H2⟩, ⟨%f3, %hf3, H3⟩, ⟨%f4, %hf4, H4⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, ⟨%fs10, %hfs10, HS10⟩, ⟨%fs11, %hfs11, HS11⟩⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5; obtain rfl := harg13.eq_unread hfs6; obtain rfl := harg14.eq_unread hfs7; obtain rfl := harg15.eq_unread hfs8; obtain rfl := harg16.eq_unread hfs9; obtain rfl := harg17.eq_unread hfs10; obtain rfl := harg18.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    isplitl [HS3]; · iexists _; iexact HS3
    isplitl [HS4]
    · iexists _; isplitr; · ipureintro; exact harg11.read_unread _
      iexact HS4
    isplitl [HS5]
    · iexists _; isplitr; · ipureintro; exact harg12.read_unread _
      iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    iexists _; iexact HS11

end Cert.KernelIdeal.Frm

end
-- ==== Proof.KI.RunLast.lean ====
import proofs.«415577_j83279415869695_3_alg».proof.Proof.KI.Base

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (arg2 arg3 : Memref sig .tc .vmem S1x1x32x160x160 .f32) (arg4 arg5 : Memref sig .tc .vmem S1x1x1x160x160 .f32)
  (arg6 : Memref sig .tc .vmem S1x1x6 .f32) (arg7 arg8 arg9 arg10 arg11 arg12 : Memref sig .tc .vmem S1x1 .f32)
  (arg13 arg14 arg15 arg16 arg17 arg18 : Memref sig .tc .vmem S160x160 .f32)
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole)
  (x0 x1 : Vec F S1x1x32x160x160 .f32) (x2 x3 : Vec F S1x1x1x160x160 .f32)

-- A LAST point skips the reset and finishes: every carried buffer and the output block are stored into.
set_option maxHeartbeats 4000000 in
noncomputable def kernelRunLast (c : Dev nD) (i : grid0.Coords) (hc0 : ¬condFirst i) (hc1 : condLast i) (p : Held F) :
    Σ' (L4 : Pcs F S1x1x6) (LS0 LS1 LS2 LS3 LS4 LS5 : Pcs F S1x1) (LS6 LS7 LS8 LS9 LS10 : Pcs F S160x160), { LS11 : Pcs F S160x160 //
      ∀ (E : Set ℕ) (K : PUnit → sProp 𝕄),
        iprop(holds c arg2 x0 ∗ holds c arg3 x1 ∗ holds c arg4 x2 ∗ holds c arg5 x3 ∗ anyAt c arg6 ∗ iprop(holds c arg7 p.a0 ∗ holds c arg8 p.a1 ∗ holds c arg9 p.a2 ∗ holds c arg10 p.a3 ∗ holds c arg11 p.a4 ∗ holds c arg12 p.a5 ∗ holds c arg13 p.b0 ∗ holds c arg14 p.b1 ∗ holds c arg15 p.b2 ∗ holds c arg16 p.b3 ∗ holds c arg17 p.b4 ∗ holds c arg18 p.b5)
            ∗ (iprop(holds c arg2 x0 ∗ holds c arg3 x1 ∗ holds c arg4 x2 ∗ holds c arg5 x3 ∗ wrote c arg6 L4 ∗ iprop(wrote c arg7 LS0 ∗ wrote c arg8 LS1 ∗ wrote c arg9 LS2 ∗ wrote c arg10 LS3 ∗ wrote c arg11 LS4 ∗ wrote c arg12 LS5 ∗ wrote c arg13 LS6 ∗ wrote c arg14 LS7 ∗ wrote c arg15 LS8 ∗ wrote c arg16 LS9 ∗ wrote c arg17 LS10 ∗ wrote c arg18 LS11)) -∗ K ⟨⟩))
          ⊢ wp frame (wpE (defs₀ (F := F)) Variants.none c none) E (cc0__gploss_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, ?_, ?_, ?_, ?_, fun E K => ?run⟩
  case run =>
    simp only [cc0__gploss_kernel_eq_skeleton]; unfold cc0__gploss_kernel_skel
    unfold anyAt wrote holds owns
    iintro ⟨⟨%f0, %hf0, H0⟩, ⟨%f1, %hf1, H1⟩, ⟨%f2, %hf2, H2⟩, ⟨%f3, %hf3, H3⟩, ⟨%d4, %f4, -, H4⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, ⟨%fs10, %hfs10, HS10⟩, ⟨%fs11, %hfs11, HS11⟩⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5; obtain rfl := harg13.eq_unread hfs6; obtain rfl := harg14.eq_unread hfs7; obtain rfl := harg15.eq_unread hfs8; obtain rfl := harg16.eq_unread hfs9; obtain rfl := harg17.eq_unread hfs10; obtain rfl := harg18.eq_unread hfs11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    iexists _; iexact HS11

end Cert.KernelIdeal.Frm

end
-- ==== Proof.KI.Data1.lean ====
import proofs.«415577_j83279415869695_3_alg».proof.Proof.KI.RunFirst
import proofs.«415577_j83279415869695_3_alg».proof.Proof.KI.RunMid
import proofs.«415577_j83279415869695_3_alg».proof.Proof.KI.RunLast

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

-- The output block's contents are stated through one fixed view: pieces that cover a block read back the same through any.
abbrev VO4 : View sig .tc .vmem S1x1x6 .f32 := (Memref.whole cc0_stg4_0 : Memref sig .tc .vmem S1x1x6 .f32).view

-- The body's three runs on the memrefs and blocks of point t.
def runFirstAt (c : Dev nD) (t : Fin cfg0.N) (h0 : t.val % 5 = 0) :=
  kernelRunFirst (F := F) (ms0_0 t) (ms0_1 t) (ms0_2 t) (ms0_3 t) (ms0_4 t) scM0 scM1 scM2 scM3 scM4 scM5 scM6 scM7 scM8 scM9 scM10 scM11 (hs0_0 t) (hs0_1 t) (hs0_2 t) (hs0_3 t) (hs0_4 t) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (iblk m c 0 t) (iblk m c 1 t) (iblk m c 2 t) (iblk m c 3 t) c (grid0.coords t) ((hcondFirst t).mpr h0) (fun h => absurd ((hcondLast t).mp h) (by omega))
def runMidAt (c : Dev nD) (t : Fin cfg0.N) (h0 : ¬t.val % 5 = 0) (h4 : ¬t.val % 5 = 4) (p : Held F) :=
  kernelRunMid (F := F) (ms0_0 t) (ms0_1 t) (ms0_2 t) (ms0_3 t) (ms0_4 t) scM0 scM1 scM2 scM3 scM4 scM5 scM6 scM7 scM8 scM9 scM10 scM11 (hs0_0 t) (hs0_1 t) (hs0_2 t) (hs0_3 t) (hs0_4 t) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (iblk m c 0 t) (iblk m c 1 t) (iblk m c 2 t) (iblk m c 3 t) c (grid0.coords t) (fun h => h0 ((hcondFirst t).mp h)) (fun h => h4 ((hcondLast t).mp h)) p
def runLastAt (c : Dev nD) (t : Fin cfg0.N) (h0 : ¬t.val % 5 = 0) (h4 : t.val % 5 = 4) (p : Held F) :=
  kernelRunLast (F := F) (ms0_0 t) (ms0_1 t) (ms0_2 t) (ms0_3 t) (ms0_4 t) scM0 scM1 scM2 scM3 scM4 scM5 scM6 scM7 scM8 scM9 scM10 scM11 (hs0_0 t) (hs0_1 t) (hs0_2 t) (hs0_3 t) (hs0_4 t) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (iblk m c 0 t) (iblk m c 1 t) (iblk m c 2 t) (iblk m c 3 t) c (grid0.coords t) (fun h => h0 ((hcondFirst t).mp h)) ((hcondLast t).mpr h4) p

-- What each kind of point leaves: the stored buffers at their pieces read back, the others as they were (a block
-- that is not stored gets a placeholder nothing consults).
def stepFirst (c : Dev nD) (t : Fin cfg0.N) (h0 : t.val % 5 = 0) : Held F where
  out := readBack VO4 (runFirstAt m c t h0).1
  a0 := readBack scM0.view (runFirstAt m c t h0).2.1
  a1 := readBack scM1.view (runFirstAt m c t h0).2.2.1
  a2 := readBack scM2.view (runFirstAt m c t h0).2.2.2.1
  a3 := readBack scM3.view (runFirstAt m c t h0).2.2.2.2.1
  a4 := readBack scM4.view (runFirstAt m c t h0).2.2.2.2.2.1
  a5 := readBack scM5.view (runFirstAt m c t h0).2.2.2.2.2.2.1
  b0 := readBack scM6.view (runFirstAt m c t h0).2.2.2.2.2.2.2.1
  b1 := readBack scM7.view (runFirstAt m c t h0).2.2.2.2.2.2.2.2.1
  b2 := readBack scM8.view (runFirstAt m c t h0).2.2.2.2.2.2.2.2.2.1
  b3 := readBack scM9.view (runFirstAt m c t h0).2.2.2.2.2.2.2.2.2.2.1
  b4 := readBack scM10.view (runFirstAt m c t h0).2.2.2.2.2.2.2.2.2.2.2.1
  b5 := readBack scM11.view (runFirstAt m c t h0).2.2.2.2.2.2.2.2.2.2.2.2.1
def stepMid (c : Dev nD) (t : Fin cfg0.N) (h0 : ¬t.val % 5 = 0) (h4 : ¬t.val % 5 = 4) (p : Held F) : Held F where
  out := readBack VO4 (runMidAt m c t h0 h4 p).1
  a0 := readBack scM0.view (runMidAt m c t h0 h4 p).2.1
  a1 := readBack scM1.view (runMidAt m c t h0 h4 p).2.2.1
  a2 := readBack scM2.view (runMidAt m c t h0 h4 p).2.2.2.1
  a3 := readBack scM3.view (runMidAt m c t h0 h4 p).2.2.2.2.1
  a4 := p.a4
  a5 := p.a5
  b0 := readBack scM6.view (runMidAt m c t h0 h4 p).2.2.2.2.2.2.2.1
  b1 := readBack scM7.view (runMidAt m c t h0 h4 p).2.2.2.2.2.2.2.2.1
  b2 := readBack scM8.view (runMidAt m c t h0 h4 p).2.2.2.2.2.2.2.2.2.1
  b3 := readBack scM9.view (runMidAt m c t h0 h4 p).2.2.2.2.2.2.2.2.2.2.1
  b4 := readBack scM10.view (runMidAt m c t h0 h4 p).2.2.2.2.2.2.2.2.2.2.2.1
  b5 := readBack scM11.view (runMidAt m c t h0 h4 p).2.2.2.2.2.2.2.2.2.2.2.2.1
def stepLast (c : Dev nD) (t : Fin cfg0.N) (h0 : ¬t.val % 5 = 0) (h4 : t.val % 5 = 4) (p : Held F) : Held F where
  out := readBack VO4 (runLastAt m c t h0 h4 p).1
  a0 := readBack scM0.view (runLastAt m c t h0 h4 p).2.1
  a1 := readBack scM1.view (runLastAt m c t h0 h4 p).2.2.1
  a2 := readBack scM2.view (runLastAt m c t h0 h4 p).2.2.2.1
  a3 := readBack scM3.view (runLastAt m c t h0 h4 p).2.2.2.2.1
  a4 := readBack scM4.view (runLastAt m c t h0 h4 p).2.2.2.2.2.1
  a5 := readBack scM5.view (runLastAt m c t h0 h4 p).2.2.2.2.2.2.1
  b0 := readBack scM6.view (runLastAt m c t h0 h4 p).2.2.2.2.2.2.2.1
  b1 := readBack scM7.view (runLastAt m c t h0 h4 p).2.2.2.2.2.2.2.2.1
  b2 := readBack scM8.view (runLastAt m c t h0 h4 p).2.2.2.2.2.2.2.2.2.1
  b3 := readBack scM9.view (runLastAt m c t h0 h4 p).2.2.2.2.2.2.2.2.2.2.1
  b4 := readBack scM10.view (runLastAt m c t h0 h4 p).2.2.2.2.2.2.2.2.2.2.2.1
  b5 := readBack scM11.view (runLastAt m c t h0 h4 p).2.2.2.2.2.2.2.2.2.2.2.2.1

end Cert.KernelIdeal.Frm

end
-- ==== Proof.KI.Data2.lean ====
import proofs.«415577_j83279415869695_3_alg».proof.Proof.KI.Data1

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

-- What point n leaves: a FIRST point's from its own blocks alone, a later point's over what point n - 1 left.
def outsAt0 (c : Dev nD) : (n : ℕ) → n < cfg0.N → Held F
  | 0, hn => stepFirst m c ⟨0, hn⟩ (Nat.zero_mod _)
  | n + 1, hn =>
    if h0 : (n + 1) % 5 = 0 then stepFirst m c ⟨n + 1, hn⟩ h0
    else if h4 : (n + 1) % 5 = 4 then stepLast m c ⟨n + 1, hn⟩ h0 h4 (outsAt0 c n (Nat.lt_of_succ_lt hn))
    else stepMid m c ⟨n + 1, hn⟩ h0 h4 (outsAt0 c n (Nat.lt_of_succ_lt hn))

theorem outsAt0_first (c : Dev nD) (t : Fin cfg0.N) (h0 : t.val % 5 = 0) :
    outsAt0 m c t.val t.isLt = stepFirst m c t h0 := by
  obtain ⟨n, hn⟩ := t
  cases n with
  | zero => rfl
  | succ n => exact dif_pos h0

theorem outsAt0_mid (c : Dev nD) (t : Fin cfg0.N) (h0 : ¬t.val % 5 = 0) (h4 : ¬t.val % 5 = 4) :
    outsAt0 m c t.val t.isLt = stepMid m c t h0 h4 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h4)

theorem outsAt0_last (c : Dev nD) (t : Fin cfg0.N) (h0 : ¬t.val % 5 = 0) (h4 : t.val % 5 = 4) :
    outsAt0 m c t.val t.isLt = stepLast m c t h0 h4 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h4)

-- The invariant before point n: before the first point the carried buffers hold anything, afterwards what point n - 1 left.
def PhiS (c : Dev nD) : (n : ℕ) → n ≤ cfg0.N → sProp 𝕄
  | 0, _ => Pipeline.ΦA spec0 c
  | n + 1, hn => iprop(heldAt c (outsAt0 m c n hn) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(heldAt c (outsAt0 m c (n - 1) (by omega)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).out
  Φ t := PhiS m c t.val (Nat.le_of_lt_succ t.isLt)
  q w := if w.val < 2 then fullShare.left else fullShare.right
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = if w.val < 2 then fullShare.left else fullShare.right := by
  dsimp only [dats]

theorem owed_eq (c : Dev nD) (t : Fin (cfg0.N + 1)) : (dats m 0 c).owed t = 0 := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).out := by dsimp only [dats]

-- The body finds each input block as it is in the argument array.
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq m c 0]; try rfl) t d).trans
    (by unfold Dat.fetched Dat.blockOf iblk; rw [A_eq m c 0]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq m c 1]; try rfl) t d).trans
    (by unfold Dat.fetched Dat.blockOf iblk; rw [A_eq m c 1]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq m c 2]; try rfl) t d).trans
    (by unfold Dat.fetched Dat.blockOf iblk; rw [A_eq m c 2]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq m c 3]; try rfl) t d).trans
    (by unfold Dat.fetched Dat.blockOf iblk; rw [A_eq m c 3]; try rfl)

-- What the body is called with at point t, the windows one by one, and what it returns.
def bodyPre (c : Dev nD) (t : Fin cfg0.N) : sProp 𝕄 :=
  iprop((dats m 0 c).Φ t.castSucc ∗ (dats m 0 c).owesAt () t.castSucc
    ∗ (∃ d, holds c (ms0_0 t) ((dats m 0 c).before 0 t d))
    ∗ (∃ d, holds c (ms0_1 t) ((dats m 0 c).before 1 t d))
    ∗ (∃ d, holds c (ms0_2 t) ((dats m 0 c).before 2 t d))
    ∗ (∃ d, holds c (ms0_3 t) ((dats m 0 c).before 3 t d))
    ∗ (∃ d, holds c (ms0_4 t) ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem hin (c : Dev nD) : Pipeline.ΦA spec0 c ⊢ (dats m 0 c).Φ 0 := .rfl

-- Carried buffers at named contents are carried buffers at some contents.
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  exact sep_mono_l (held_any c _)

theorem hout (c : Dev nD) : (dats m 0 c).Φ (Fin.last cfg0.N) ⊢ Pipeline.ΦA spec0 c :=
  Phi_out m c _ (by rw [Fin.val_last]; have : cfg0.N = 10 := N_0; omega)

-- So before any point the carried buffers hold some contents.
theorem Phi_start (c : Dev nD) (t : Fin cfg0.N) : (dats m 0 c).Φ t.castSucc ⊢ Pipeline.ΦA spec0 c := by
  by_cases hz : t.val = 0
  · rw [PhiS_castSucc m c t, PhiS_zero m c _ _ hz]
  · exact Phi_out m c t.castSucc (by rw [Fin.coe_castSucc]; exact hz)

-- The obligation at a point with the four input blocks and what the point leaves spelled out: the part the three kinds
-- of point share.
theorem sound_of (c : Dev nD) (t : Fin cfg0.N) (O'' : sProp 𝕄) (h4 : (dats m 0 c).leavesExact 4 t = O'')
    (h : iprop((dats m 0 c).Φ t.castSucc ∗ (dats m 0 c).owesAt () t.castSucc
          ∗ (∃ d : Vec F S1x1x32x160x160 .f32, holds c (ms0_0 t) (iblk m c 0 t)) ∗ (∃ d : Vec F S1x1x32x160x160 .f32, holds c (ms0_1 t) (iblk m c 1 t))
          ∗ (∃ d : Vec F S1x1x1x160x160 .f32, holds c (ms0_2 t) (iblk m c 2 t)) ∗ (∃ d : Vec F S1x1x1x160x160 .f32, holds c (ms0_3 t) (iblk m c 3 t))
          ∗ (∃ d, holds c (ms0_4 t) ((dats m 0 c).before 4 t d)))
        ⊢ wp frame (wpE (defs₀ (F := F)) Variants.none c none) Set.univ (bodyAt0 t) (fun _ => iprop(iprop(heldAt c (outsAt0 m c t.val t.isLt) ∗ (∃ r, prngReg c r))
          ∗ (dats m 0 c).owesAt () t.castSucc ∗ holds c (ms0_0 t) (iblk m c 0 t) ∗ holds c (ms0_1 t) (iblk m c 1 t) ∗ holds c (ms0_2 t) (iblk m c 2 t) ∗ holds c (ms0_3 t) (iblk m c 3 t) ∗ O''))) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl,
    show (dats m 0 c).Φ t.succ = iprop(heldAt c (outsAt0 m c t.val t.isLt) ∗ (∃ r, prngReg c r)) from rfl,
    show (dats m 0 c).leavesExact 0 t = holds c (ms0_0 t) ((dats m 0 c).after 0 t) from by
      unfold Dat.leavesExact; rw [liveIn 0 t (by decide)], after0_0,
    show (dats m 0 c).leavesExact 1 t = holds c (ms0_1 t) ((dats m 0 c).after 1 t) from by
      unfold Dat.leavesExact; rw [liveIn 1 t (by decide)], after0_1,
    show (dats m 0 c).leavesExact 2 t = holds c (ms0_2 t) ((dats m 0 c).after 2 t) from by
      unfold Dat.leavesExact; rw [liveIn 2 t (by decide)], after0_2,
    show (dats m 0 c).leavesExact 3 t = holds c (ms0_3 t) ((dats m 0 c).after 3 t) from by
      unfold Dat.leavesExact; rw [liveIn 3 t (by decide)], after0_3,
    h4]
  exact h

abbrev WPb (c : Dev nD) (t : Fin cfg0.N) (E : Set ℕ) (K : PUnit → sProp 𝕄) : sProp 𝕄 := wp frame (wpE (defs₀ (F := F)) Variants.none c none) E (bodyAt0 t) K

end Cert.KernelIdeal.Frm

end
-- ==== Proof.KI.CarryB.lean ====
import proofs.«415577_j83279415869695_3_alg».proof.Proof.KI.Base

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- Around the body's triple: the carried buffers P and the five blocks go in; what the body leaves, Q in the carried
-- buffers and Oq in the output block, comes back in the form R', O' that is asked for.
theorem oblig {WP : Set ℕ → (PUnit → sProp 𝕄) → sProp 𝕄} {X D0 D1 D2 D3 : Type} {A0 A1 A2 A3 O' O'' P Q R R' G owes : sProp 𝕄}
    {Oin O Oq : X → sProp 𝕄} (hR : R' = R) (hO' : O' = O'') (hO : ∀ x, Oin x ⊢ O x) (hOq : ∀ x, Oq x ⊢ O'') (hQ : Q ⊢ R)
    (hrun : ∀ x E K, iprop(A0 ∗ A1 ∗ A2 ∗ A3 ∗ O x ∗ P ∗ (iprop(A0 ∗ A1 ∗ A2 ∗ A3 ∗ Oq x ∗ Q) -∗ K ⟨⟩)) ⊢ WP E K) :
    iprop(iprop(P ∗ G) ∗ owes ∗ (∃ d : D0, A0) ∗ (∃ d : D1, A1) ∗ (∃ d : D2, A2) ∗ (∃ d : D3, A3) ∗ (∃ x, Oin x))
      ⊢ WP Set.univ (fun _ => iprop(iprop(R' ∗ G) ∗ owes ∗ A0 ∗ A1 ∗ A2 ∗ A3 ∗ O')) := by
  subst hR hO'
  iintro ⟨⟨HP, Hg⟩, Ho, ⟨%d0, H0⟩, ⟨%d1, H1⟩, ⟨%d2, H2⟩, ⟨%d3, H3⟩, ⟨%x, H4⟩⟩
  iapply (hrun x Set.univ _)
  isplitl [H0]; · iexact H0
  isplitl [H1]; · iexact H1
  isplitl [H2]; · iexact H2
  isplitl [H3]; · iexact H3
  isplitl [H4]; · iapply (hO x); iexact H4
  isplitl [HP]; · iexact HP
  iintro ⟨H0, H1, H2, H3, H4, HQ⟩
  isplitl [HQ Hg]
  · isplitl [HQ]; · iapply hQ; iexact HQ
    iexact Hg
  isplitl [Ho]; · iexact Ho
  isplitl [H0]; · iexact H0
  isplitl [H1]; · iexact H1
  isplitl [H2]; · iexact H2
  isplitl [H3]; · iexact H3
  iapply (hOq x); iexact H4

end Cert.KernelIdeal.Frm

end
-- ==== Proof.KI.SoundFirst.lean ====
import proofs.«415577_j83279415869695_3_alg».proof.Proof.KI.Data2
import proofs.«415577_j83279415869695_3_alg».proof.Proof.KI.CarryB

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

-- A FIRST point takes the carried buffers at anything: nothing yet, or the previous batch item's sums.
set_option maxHeartbeats 1600000 in
theorem sound_first (c : Dev nD) (t : Fin cfg0.N) (h0 : t.val % 5 = 0) :
    bodyPre m c t ⊢ wp frame (wpE (defs₀ (F := F)) Variants.none c none) Set.univ (bodyAt0 t) (fun _ => bodyPost m c t) := by
  have hc1 : ¬condLast (grid0.coords t) := fun h => absurd ((hcondLast t).mp h) (by omega)
  refine sound_of m c t _ (Dat.leavesExact_idle (dats m 0 c) 4 t (idleOut t hc1).1 (idleOut t hc1).2) ?_
  refine (sep_mono_l (Phi_start m c t)).trans ?_
  rw [PhiA0_eq]
  refine oblig (WP := WPb c t) (O := fun d => holds c (ms0_4 t) ((dats m 0 c).before 4 t d))
    (Oq := fun d => holds c (ms0_4 t) ((dats m 0 c).before 4 t d)) (congrArg (heldAt c) (outsAt0_first m c t h0)) rfl (fun _ => .rfl)
    (fun d => exists_intro (Φ := fun d => holds c (ms0_4 t) ((dats m 0 c).before 4 t d)) d) ?_
    (fun d => (runFirstAt m c t h0).2.2.2.2.2.2.2.2.2.2.2.2.2 ((dats m 0 c).before 4 t d))
  exact BI.sep_mono (wrote_back (F := F) c scM0 scM0.view (runFirstAt m c t h0).2.1 (by sl_kernel_rfl))
    (BI.sep_mono (wrote_back (F := F) c scM1 scM1.view (runFirstAt m c t h0).2.2.1 (by sl_kernel_rfl))
    (BI.sep_mono (wrote_back (F := F) c scM2 scM2.view (runFirstAt m c t h0).2.2.2.1 (by sl_kernel_rfl))
    (BI.sep_mono (wrote_back (F := F) c scM3 scM3.view (runFirstAt m c t h0).2.2.2.2.1 (by sl_kernel_rfl))
    (BI.sep_mono (wrote_back (F := F) c scM4 scM4.view (runFirstAt m c t h0).2.2.2.2.2.1 (by sl_kernel_rfl))
    (BI.sep_mono (wrote_back (F := F) c scM5 scM5.view (runFirstAt m c t h0).2.2.2.2.2.2.1 (by sl_kernel_rfl))
    (BI.sep_mono (wrote_back (F := F) c scM6 scM6.view (runFirstAt m c t h0).2.2.2.2.2.2.2.1 (by sl_kernel_rfl))
    (BI.sep_mono (wrote_back (F := F) c scM7 scM7.view (runFirstAt m c t h0).2.2.2.2.2.2.2.2.1 (by sl_kernel_rfl))
    (BI.sep_mono (wrote_back (F := F) c scM8 scM8.view (runFirstAt m c t h0).2.2.2.2.2.2.2.2.2.1 (by sl_kernel_rfl))
    (BI.sep_mono (wrote_back (F := F) c scM9 scM9.view (runFirstAt m c t h0).2.2.2.2.2.2.2.2.2.2.1 (by sl_kernel_rfl))
    (BI.sep_mono (wrote_back (F := F) c scM10 scM10.view (runFirstAt m c t h0).2.2.2.2.2.2.2.2.2.2.2.1 (by sl_kernel_rfl))
    ((wrote_back (F := F) c scM11 scM11.view (runFirstAt m c t h0).2.2.2.2.2.2.2.2.2.2.2.2.1 (by sl_kernel_rfl)))))))))))))

end Cert.KernelIdeal.Frm

end
-- ==== Proof.KI.SoundMid.lean ====
import proofs.«415577_j83279415869695_3_alg».proof.Proof.KI.Data2
import proofs.«415577_j83279415869695_3_alg».proof.Proof.KI.CarryB

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

-- A MID point takes them at what the point before left and hands the fifth and sixth back untouched.
set_option maxHeartbeats 1600000 in
theorem sound_mid (c : Dev nD) (t : Fin cfg0.N) (h0 : ¬t.val % 5 = 0) (h4 : ¬t.val % 5 = 4) :
    bodyPre m c t ⊢ wp frame (wpE (defs₀ (F := F)) Variants.none c none) Set.univ (bodyAt0 t) (fun _ => bodyPost m c t) := by
  have hc1 : ¬condLast (grid0.coords t) := fun h => h4 ((hcondLast t).mp h)
  refine sound_of m c t _ (Dat.leavesExact_idle (dats m 0 c) 4 t (idleOut t hc1).1 (idleOut t hc1).2) ?_
  rw [PhiS_castSucc m c t, PhiS_pos m c _ _ (by omega)]
  refine oblig (WP := WPb c t) (O := fun d => holds c (ms0_4 t) ((dats m 0 c).before 4 t d))
    (Oq := fun d => holds c (ms0_4 t) ((dats m 0 c).before 4 t d)) (congrArg (heldAt c) (outsAt0_mid m c t h0 h4)) rfl (fun _ => .rfl)
    (fun d => exists_intro (Φ := fun d => holds c (ms0_4 t) ((dats m 0 c).before 4 t d)) d) ?_
    (fun d => (runMidAt m c t h0 h4 (outsAt0 m c (t.val - 1) (Nat.lt_of_le_of_lt (Nat.sub_le _ _) t.isLt))).2.2.2.2.2.2.2.2.2.2.2.2.2 ((dats m 0 c).before 4 t d))
  exact BI.sep_mono (wrote_back (F := F) c scM0 scM0.view (runMidAt m c t h0 h4 (outsAt0 m c (t.val - 1) (Nat.lt_of_le_of_lt (Nat.sub_le _ _) t.isLt))).2.1 (by sl_kernel_rfl))
    (BI.sep_mono (wrote_back (F := F) c scM1 scM1.view (runMidAt m c t h0 h4 (outsAt0 m c (t.val - 1) (Nat.lt_of_le_of_lt (Nat.sub_le _ _) t.isLt))).2.2.1 (by sl_kernel_rfl))
    (BI.sep_mono (wrote_back (F := F) c scM2 scM2.view (runMidAt m c t h0 h4 (outsAt0 m c (t.val - 1) (Nat.lt_of_le_of_lt (Nat.sub_le _ _) t.isLt))).2.2.2.1 (by sl_kernel_rfl))
    (BI.sep_mono (wrote_back (F := F) c scM3 scM3.view (runMidAt m c t h0 h4 (outsAt0 m c (t.val - 1) (Nat.lt_of_le_of_lt (Nat.sub_le _ _) t.isLt))).2.2.2.2.1 (by sl_kernel_rfl))
    (BI.sep_mono (Entails.refl _)
    (BI.sep_mono (Entails.refl _)
    (BI.sep_mono (wrote_back (F := F) c scM6 scM6.view (runMidAt m c t h0 h4 (outsAt0 m c (t.val - 1) (Nat.lt_of_le_of_lt (Nat.sub_le _ _) t.isLt))).2.2.2.2.2.2.2.1 (by sl_kernel_rfl))
    (BI.sep_mono (wrote_back (F := F) c scM7 scM7.view (runMidAt m c t h0 h4 (outsAt0 m c (t.val - 1) (Nat.lt_of_le_of_lt (Nat.sub_le _ _) t.isLt))).2.2.2.2.2.2.2.2.1 (by sl_kernel_rfl))
    (BI.sep_mono (wrote_back (F := F) c scM8 scM8.view (runMidAt m c t h0 h4 (outsAt0 m c (t.val - 1) (Nat.lt_of_le_of_lt (Nat.sub_le _ _) t.isLt))).2.2.2.2.2.2.2.2.2.1 (by sl_kernel_rfl))
    (BI.sep_mono (wrote_back (F := F) c scM9 scM9.view (runMidAt m c t h0 h4 (outsAt0 m c (t.val - 1) (Nat.lt_of_le_of_lt (Nat.sub_le _ _) t.isLt))).2.2.2.2.2.2.2.2.2.2.1 (by sl_kernel_rfl))
    (BI.sep_mono (wrote_back (F := F) c scM10 scM10.view (runMidAt m c t h0 h4 (outsAt0 m c (t.val - 1) (Nat.lt_of_le_of_lt (Nat.sub_le _ _) t.isLt))).2.2.2.2.2.2.2.2.2.2.2.1 (by sl_kernel_rfl))
    ((wrote_back (F := F) c scM11 scM11.view (runMidAt m c t h0 h4 (outsAt0 m c (t.val - 1) (Nat.lt_of_le_of_lt (Nat.sub_le _ _) t.isLt))).2.2.2.2.2.2.2.2.2.2.2.2.1 (by sl_kernel_rfl)))))))))))))

end Cert.KernelIdeal.Frm

end
-- ==== Proof.KI.SoundLast.lean ====
import proofs.«415577_j83279415869695_3_alg».proof.Proof.KI.Data2
import proofs.«415577_j83279415869695_3_alg».proof.Proof.KI.CarryB

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

-- A LAST point also stores the output block, taken at anything.
set_option maxHeartbeats 1600000 in
theorem sound_last (c : Dev nD) (t : Fin cfg0.N) (h0 : ¬t.val % 5 = 0) (h4 : t.val % 5 = 4) :
    bodyPre m c t ⊢ wp frame (wpE (defs₀ (F := F)) Variants.none c none) Set.univ (bodyAt0 t) (fun _ => bodyPost m c t) := by
  refine sound_of m c t (holds c (ms0_4 t) ((dats m 0 c).after 4 t)) (by
    unfold Dat.leavesExact; rw [liveOut t ((hcondLast t).mpr h4)]) ?_
  rw [PhiS_castSucc m c t, PhiS_pos m c _ _ (by omega)]
  refine oblig (WP := WPb c t) (O := fun _ => anyAt c (ms0_4 t)) (Oq := fun _ => wrote c (ms0_4 t) (runLastAt m c t h0 h4 (outsAt0 m c (t.val - 1) (Nat.lt_of_le_of_lt (Nat.sub_le _ _) t.isLt))).1)
    (congrArg (heldAt c) (outsAt0_last m c t h0 h4)) (congrArg (holds c (ms0_4 t)) ((after0_4 m c t).trans (congrArg Held.out (outsAt0_last m c t h0 h4))))
    (fun _ => holds_any c _ _) (fun _ => wrote_back (F := F) c (ms0_4 t) VO4 (runLastAt m c t h0 h4 (outsAt0 m c (t.val - 1) (Nat.lt_of_le_of_lt (Nat.sub_le _ _) t.isLt))).1 (by sl_kernel_rfl)) ?_
    (fun _ => (runLastAt m c t h0 h4 (outsAt0 m c (t.val - 1) (Nat.lt_of_le_of_lt (Nat.sub_le _ _) t.isLt))).2.2.2.2.2.2.2.2.2.2.2.2.2)
  exact BI.sep_mono (wrote_back (F := F) c scM0 scM0.view (runLastAt m c t h0 h4 (outsAt0 m c (t.val - 1) (Nat.lt_of_le_of_lt (Nat.sub_le _ _) t.isLt))).2.1 (by sl_kernel_rfl))
    (BI.sep_mono (wrote_back (F := F) c scM1 scM1.view (runLastAt m c t h0 h4 (outsAt0 m c (t.val - 1) (Nat.lt_of_le_of_lt (Nat.sub_le _ _) t.isLt))).2.2.1 (by sl_kernel_rfl))
    (BI.sep_mono (wrote_back (F := F) c scM2 scM2.view (runLastAt m c t h0 h4 (outsAt0 m c (t.val - 1) (Nat.lt_of_le_of_lt (Nat.sub_le _ _) t.isLt))).2.2.2.1 (by sl_kernel_rfl))
    (BI.sep_mono (wrote_back (F := F) c scM3 scM3.view (runLastAt m c t h0 h4 (outsAt0 m c (t.val - 1) (Nat.lt_of_le_of_lt (Nat.sub_le _ _) t.isLt))).2.2.2.2.1 (by sl_kernel_rfl))
    (BI.sep_mono (wrote_back (F := F) c scM4 scM4.view (runLastAt m c t h0 h4 (outsAt0 m c (t.val - 1) (Nat.lt_of_le_of_lt (Nat.sub_le _ _) t.isLt))).2.2.2.2.2.1 (by sl_kernel_rfl))
    (BI.sep_mono (wrote_back (F := F) c scM5 scM5.view (runLastAt m c t h0 h4 (outsAt0 m c (t.val - 1) (Nat.lt_of_le_of_lt (Nat.sub_le _ _) t.isLt))).2.2.2.2.2.2.1 (by sl_kernel_rfl))
    (BI.sep_mono (wrote_back (F := F) c scM6 scM6.view (runLastAt m c t h0 h4 (outsAt0 m c (t.val - 1) (Nat.lt_of_le_of_lt (Nat.sub_le _ _) t.isLt))).2.2.2.2.2.2.2.1 (by sl_kernel_rfl))
    (BI.sep_mono (wrote_back (F := F) c scM7 scM7.view (runLastAt m c t h0 h4 (outsAt0 m c (t.val - 1) (Nat.lt_of_le_of_lt (Nat.sub_le _ _) t.isLt))).2.2.2.2.2.2.2.2.1 (by sl_kernel_rfl))
    (BI.sep_mono (wrote_back (F := F) c scM8 scM8.view (runLastAt m c t h0 h4 (outsAt0 m c (t.val - 1) (Nat.lt_of_le_of_lt (Nat.sub_le _ _) t.isLt))).2.2.2.2.2.2.2.2.2.1 (by sl_kernel_rfl))
    (BI.sep_mono (wrote_back (F := F) c scM9 scM9.view (runLastAt m c t h0 h4 (outsAt0 m c (t.val - 1) (Nat.lt_of_le_of_lt (Nat.sub_le _ _) t.isLt))).2.2.2.2.2.2.2.2.2.2.1 (by sl_kernel_rfl))
    (BI.sep_mono (wrote_back (F := F) c scM10 scM10.view (runLastAt m c t h0 h4 (outsAt0 m c (t.val - 1) (Nat.lt_of_le_of_lt (Nat.sub_le _ _) t.isLt))).2.2.2.2.2.2.2.2.2.2.2.1 (by sl_kernel_rfl))
    ((wrote_back (F := F) c scM11 scM11.view (runLastAt m c t h0 h4 (outsAt0 m c (t.val - 1) (Nat.lt_of_le_of_lt (Nat.sub_le _ _) t.isLt))).2.2.2.2.2.2.2.2.2.2.2.2.1 (by sl_kernel_rfl)))))))))))))

end Cert.KernelIdeal.Frm

end
-- ==== Proof.KI.Launch.lean ====
import proofs.«415577_j83279415869695_3_alg».proof.Proof.KI.Data2
import Idealize.ShloMosaic.Lib.Pipeline.FrameSuffix

noncomputable section

namespace Cert.KernelIdeal.Frm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

abbrev adm : (p : Fin 1) → (pcfgs (F := F) p).Adm := fun p => (cfgs p).toPCfg_adm

theorem arrRefs_eq : Finset.univ.image (Pipeline.arrRef spec0) = {main_arg0, main_arg1, main_v0} := by decide

-- The five windows unfold one by one; each window's array is its whole buffer, an input at a half share.
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg1) ↦{fullShare.left} G 1)
          ∗ (((c : Thread nD τ).loc main_arg0) ↦{fullShare.right} G 2) ∗ (((c : Thread nD τ).loc main_arg1) ↦{fullShare.right} G 3)
          ∗ (((c : Thread nD τ).loc main_v0) ↦{fullShare} G 4)) := by
  unfold Dat.arrays Dat.share
  rw [bigSep_W0, (arr_whole0 0).set_eq_univ, (arr_whole0 1).set_eq_univ, (arr_whole0 4).set_eq_univ, q_eq, q_eq, q_eq, q_eq]
  rfl

theorem arrBufs_chain (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  rw [arrRefs_eq, BI.bigSep_insert (by decide), BI.bigSep_insert (by decide), BI.bigSep_singleton]
  rfl

-- A whole buffer splits into its two halves at the same contents.
theorem hsplit (c : Dev nD) :
    (Pipeline.arrBufs spec0 c (V m c) : sProp 𝕄) ⊢ (dats m 0 c).arrays (dats m 0 c).A := by
  rw [arrays_chain, arrBufs_chain, A_eq, A_eq, A_eq, A_eq, A_eq]
  iintro ⟨H0, H1, H4⟩
  icases (pointsTo_share (PosShare.mem_left_op_right fullShare)).1 $$ H0 with ⟨H0l, H0r⟩
  icases (pointsTo_share (PosShare.mem_left_op_right fullShare)).1 $$ H1 with ⟨H1l, H1r⟩
  iframe

abbrev restSet : Finset (Ref sig .tc) :=
  (Finset.univ.filter fun b : Ref sig .tc => ¬ b.isScoped) \ Finset.univ.image (Pipeline.arrRef spec0)

def tailSet : Finset (Ref sig .tc) := insert main_v0 restSet

def tailDev : Finset (DevRef τ sig) := tailSet.map ⟨Proc.devRef (sig := sig) (.tc : Proc τ), Proc.devRef_injective _⟩

theorem v0_not_rest : main_v0 ∉ restSet := by decide

theorem mem_tailDev {b : Ref sig .tc} : no_index (Proc.devRef .tc b) ∈ tailDev ↔ b ∈ tailSet := Finset.mem_map' _

theorem held_tail (c : Dev nD) (W : Valuation τ sig (Elt F)) :
    (StableHlo.held (c : Thread nD τ) tailDev W : sProp 𝕄)
      = iprop((((c : Thread nD τ).loc main_v0) ↦{fullShare} W (Proc.devRef .tc main_v0))
          ∗ Pipeline.unscopedRest spec0 c (fun b => W (Proc.devRef .tc b))) := by
  unfold StableHlo.held tailDev tailSet Pipeline.unscopedRest
  rw [bigSep_map, BI.bigSep_insert v0_not_rest]
  rfl

-- Each operation's buffers are a literal set of references, each one in the set, and it allocates nothing.
theorem hostOps1_within : ∀ op ∈ hostOps1 (F := F), op.bufs ⊆ tailDev ∧ op.fresh = ∅ := by
  simp only [List.forall_mem_cons, List.not_mem_nil, false_imp_iff, implies_true, and_true,
    StableHlo.reshape_bufs, StableHlo.nullary_bufs, StableHlo.unary_bufs, StableHlo.binary_bufs,
    Finset.insert_subset_iff, Finset.singleton_subset_iff, mem_tailDev]
  and_intros <;> first | rfl | decide

def exitVal (c : Dev nD) (o : Buf (Elt F) ((c : Thread nD τ).loc main_v0)) : Valuation τ sig (Elt F) :=
  Function.update (fun b => m ((c : Dev nD), b)) (Proc.devRef .tc main_v0) o

def hostTail (c : Dev nD) (o : Buf (Elt F) ((c : Thread nD τ).loc main_v0)) : Buf (Elt F) ((c : Thread nD τ).loc main_v29) :=
  StableHlo.after hostOps1 (exitVal m c o) (Proc.devRef .tc main_v29)

theorem exitVal_out (c : Dev nD) (o : Buf (Elt F) ((c : Thread nD τ).loc main_v0)) :
    exitVal m c o (Proc.devRef .tc main_v0) = o := by
  unfold exitVal; exact Function.update_self _ _ _

-- No operation's result is the output array.
theorem after_out (W : Valuation τ sig (Elt F)) :
    StableHlo.after (hostOps1 (F := F)) W (Proc.devRef .tc main_v0) = W (Proc.devRef .tc main_v0) := by
  after_results

abbrev endRest (c : Dev nD) (o : Buf (Elt F) ((c : Thread nD τ).loc main_v0)) : sProp 𝕄 :=
  Pipeline.unscopedRest spec0 c (fun b => StableHlo.after hostOps1 (exitVal m c o) (Proc.devRef .tc b))

-- Away from the output array the exit valuation is the launch contents.
theorem rest_exit (c : Dev nD) (o : Buf (Elt F) ((c : Thread nD τ).loc main_v0)) :
    (Pipeline.unscopedRest spec0 c (fun b => exitVal m c o (Proc.devRef .tc b)) : sProp 𝕄) = Pipeline.unscopedRest spec0 c (V m c) :=
  bigSep_congr fun b hb => by
    beta_reduce; unfold exitVal
    rw [Function.update_of_ne (StableHlo.devRef_ne_of_ne fun e : b = main_v0 => v0_not_rest (e ▸ hb))]

-- The operations run holding the output array and the buffers that are no window's array; the arguments' half shares are framed.
theorem htail (c : Dev nD) (Q' : PUnit → sProp 𝕄) :
    iprop((iprop((dats m 0 c).arrays ((dats m 0 c).arrAt · cfg0.N) ∗ endRest m c ((dats m 0 c).arrAt 4 cfg0.N)) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c : Thread nD τ) none) Set.univ
          (Pipeline.chain [StableHlo.seq hostOps1]) Q' := by
  have hrun := Pipeline.wp_seqs_then (Ix := Unit) (Name := ℕ) (U := UR sig nD τ) (Lvl := ℕ) (pcfgs (F := F)) defs₀ Variants.none c tailDev []
    (K := Q') [hostOps1]
    (fun ops ho op h => (hostOps1_within op (List.mem_singleton.mp ho ▸ h)).1)
    (fun ops ho op h => (hostOps1_within op (List.mem_singleton.mp ho ▸ h)).2)
    (exitVal m c ((dats m 0 c).arrAt 4 cfg0.N))
  simp only [List.map_cons, List.map_nil, List.append_nil, List.flatten_cons, List.flatten_nil] at hrun
  rw [held_tail, held_tail, after_out, exitVal_out, rest_exit] at hrun
  rw [arrays_chain]
  iintro ⟨Hk, Hbd, ⟨H0, H1, H2, H3, H4⟩, HZ⟩
  iapply hrun $$ [Hbd H4 HZ]
  · iframe
  iintro ⟨Hbd, H4, HZ⟩
  rw [Pipeline.chain_nil, wp_pure]; imodintro
  iapply Hk
  iframe

set_option backward.isDefEq.respectTransparency.types false in
-- Both arguments come back as launched; the result is the host operations' fold over the output array the region left.
theorem run_main_of (hbody : ∀ c : Dev nD, BodyObligation (dats m 0 c) (defs₀ (F := F)) Variants.none () Set.univ) (ρ : Dev nD → PrngReg) :
    θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v29) = hostTail m c ((dats m 0 c).arrAt 4 cfg0.N)) := by
  classical
  exact Pipeline.θ_run_region_pf_tail (pcfgs (F := F)) adm (dats m) () cellOf_inj 0 winFacts₀0 (Pipeline.OwnSemFacts.none spec0)
    (Pipeline.PreFacts.none _) emb₁ defs₀ Variants.none m ρ main (fun _ => Pipeline.chain [StableHlo.seq hostOps1])
    (fun c => (hbody c).loose) block_pos0 arr_whole0 stage_whole0 (fun c t => owed_eq m c t)
    (G := fun _ => iprop(emp)) (u₀ := initOf (Pipeline.cells (Pipeline.pin pcfgs adm) cellOf_inj) (Pipeline.launchToks (Pipeline.pin pcfgs adm) cellOf_inj))
    (hu₀ := by
      iintro Hu; imodintro
      isplitl [Hu]; · iapply (show (ownU _ : sProp 𝕄) ⊢ BI.own (emb₁ (initOf (Pipeline.cells (Pipeline.pin pcfgs adm) cellOf_inj) (Pipeline.launchToks (Pipeline.pin pcfgs adm) cellOf_inj))) from .rfl); iexact Hu
      iapply (show (BI.emp : sProp 𝕄) ⊢ bigSep Finset.univ (fun _ : Dev nD => (BI.emp : sProp 𝕄)) from by rw [BI.bigSep_emp_const])
      iempintro)
    (V := V m)
    (hmain := fun c Q => by
      rw [main_chain c]
      simp only [Pipeline.chain_cons]
      iintro ⟨Hk, Hb⟩
      iapply Hk; iexact Hb)
    (hsplit := hsplit m)
    (hpf := fun _ k => k.elim0)
    (X := fun c => iprop(∃ r, prngReg c r)) (Y := fun c => iprop(∃ r, prngReg c r))
    (Z := fun c => Pipeline.unscopedRest spec0 c (V m c))
    (Z' := fun c => endRest m c ((dats m 0 c).arrAt 4 cfg0.N))
    (hX := fun c => by
      rw [Pipeline.unscopedRestP_none]
      iintro ⟨HU, -, -, -, Hp, -⟩; imodintro
      isplitl [Hp]; · iexists _; iexact Hp
      iexact HU)
    (hin := fun c => (show _ ⊢ (Pipeline.ΦA spec0 c : sProp 𝕄) by
      unfold Pipeline.ΦA; iintro ⟨Hp, -, Hr⟩; iframe).trans (hin m c))
    (hout := fun c => (hout m c).trans (by
      rw [Pipeline.ownSems0_none]; unfold Pipeline.ΦA
      iintro ⟨Hr, Hp⟩; iframe; iempintro))
    (htail := htail m)
    (QY := fun c s => s.mem ((c : Thread nD τ).loc main_v29) = hostTail m c ((dats m 0 c).arrAt 4 cfg0.N))
    (hY := fun c s' => by
      unfold endRest Pipeline.unscopedRest
      iintro ⟨-, HZ, HSI⟩
      icases (pointsTo_read_all restSet (fun b => (c : Thread nD τ).loc b)
        (fun b => StableHlo.after hostOps1 (exitVal m c ((dats m 0 c).arrAt 4 cfg0.N)) (Proc.devRef .tc b)) s') $$ [HZ HSI] with ⟨%hr, HSI⟩
      · iframe
      imodintro
      isplitr; · ipureintro; exact hr main_v29 (by decide)
      iexact HSI)
    (hQ := fun s h c => by
      obtain ⟨ha, -, hy⟩ := h c
      exact ⟨(ha 0).trans (((dats m 0 c).arrAt_in 0 (by decide) _).trans (A_eq m c 0)),
        (ha 1).trans (((dats m 0 c).arrAt_in 1 (by decide) _).trans (A_eq m c 1)), hy⟩)

end Cert.KernelIdeal.Frm

end
-- ==== Proof.KI.RunMain.lean ====
import proofs.«415577_j83279415869695_3_alg».proof.Proof.KI.SoundFirst
import proofs.«415577_j83279415869695_3_alg».proof.Proof.KI.SoundMid
import proofs.«415577_j83279415869695_3_alg».proof.Proof.KI.SoundLast
import proofs.«415577_j83279415869695_3_alg».proof.Proof.KI.Launch

noncomputable section

namespace Cert.KernelIdeal.Frm

open Idealize.ShloMosaic Idealize.ShloMosaic.TcCoe
open Idealize.SL Idealize.SL.Sem
open Idealize.ShloMosaic.Pipeline (BodyObligation)
open Cert.KernelIdeal Cert.KernelIdeal.Gen

variable {F : FTy → Type} [FloatOps F] [Named F] (m : (ℓ : Loc nD τ sig) → Buf (Elt F) ℓ)

-- A point is FIRST, MID or LAST according to t % 5, and each kind has its run.
theorem body_obligation (c : Dev nD) : BodyObligation (dats (F := F) m 0 c) (defs₀ (F := F)) Variants.none () Set.univ := fun t => by
  rw [bigSep_W0, bigSep_W0]
  by_cases h0 : t.val % 5 = 0
  · exact sound_first m c t h0
  · by_cases h4 : t.val % 5 = 4
    · exact sound_last m c t h0 h4
    · exact sound_mid m c t h0 h4

-- From any memory with zero counters every weakly fair execution of @main terminates holding both arguments as launched
-- and, in the result's buffer, the host operations' fold over the output array the region left.
theorem run_main (ρ : Dev nD → PrngReg) :
    θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v29) = hostTail m c ((dats m 0 c).arrAt 4 cfg0.N)) :=
  run_main_of m (body_obligation m) ρ

end Cert.KernelIdeal.Frm

end
-- ==== Proof.Spec.lean ====
import Idealize.ShloMosaic.PureOps.Ideal
import Idealize.ShloMosaic.Lib.ValueIdx

noncomputable section

namespace Cert.Spec

open Idealize.ShloMosaic

abbrev Field := Fin 2 → Fin 160 → Fin 160 → Fin 160 → EReal

def eps : EReal := Ideal.ofBits .f32 0x2B8CBCCC#32

def epsSq : EReal := ((5316911940649 / 5316911983139663491615228241121378304 : ℝ) : EReal)
def c320 : EReal := Ideal.ofBits .f32 0x43A00000#32
def c3 : EReal := Ideal.ofBits .f32 0x40400000#32

def gradD (X : Field) : Field := fun b d h w =>
  if hd : d.val + 1 < 160 then X b ⟨d.val + 1, hd⟩ h w - X b d h w else 0

def gradH (X : Field) : Field := fun b d h w =>
  if hh : h.val + 1 < 160 then X b d ⟨h.val + 1, hh⟩ w - X b d h w else 0

def gradW (X : Field) : Field := fun b d h w =>
  if hw : w.val + 1 < 160 then X b d h ⟨w.val + 1, hw⟩ - X b d h w else 0

def rs (s : EReal) : EReal := Ideal.rsqrt (max s epsSq)

def cosK {K : Type} [Fintype K] (f t : K → EReal) : EReal :=
  (∑ k, f k * t k) * rs (∑ k, f k * f k) * rs (∑ k, t k * t k)

def cosR {K : Type} [Fintype K] (f t : K → EReal) : EReal :=
  ∑ k, Ideal.div (f k) (max (Ideal.sqrt (∑ j, f j * f j)) eps) * Ideal.div (t k) (max (Ideal.sqrt (∑ j, t j * t j)) eps)

def sumW_K (F T : Field) : EReal := ∑ b, ∑ d, ∑ h, cosK (fun w => F b d h w) (fun w => T b d h w)
def sumW_R (F T : Field) : EReal := ∑ b, ∑ d, ∑ h, cosR (fun w => F b d h w) (fun w => T b d h w)

def sumH_K (F T : Field) : EReal := ∑ b, ∑ d, ∑ w, cosK (fun h => F b d h w) (fun h => T b d h w)
def sumH_R (F T : Field) : EReal := ∑ b, ∑ d, ∑ w, cosR (fun h => F b d h w) (fun h => T b d h w)

def sumD_K (F T : Field) : EReal := ∑ b, ∑ h, ∑ w, cosK (fun d => F b d h w) (fun d => T b d h w)
def sumD_R (F T : Field) : EReal := ∑ b, ∑ h, ∑ w, cosR (fun d => F b d h w) (fun d => T b d h w)

def combine (xw xh yw yd zh zd : EReal) : EReal :=
  Ideal.div (((-(Ideal.div xw c320 + Ideal.div xh c320)) + (-(Ideal.div yw c320 + Ideal.div yd c320)))
    + (-(Ideal.div zh c320 + Ideal.div zd c320))) c3

def lossK (X Y : Field) : EReal :=
  combine (sumW_K (gradD X) (gradD Y)) (sumH_K (gradD X) (gradD Y))
          (sumW_K (gradH X) (gradH Y)) (sumD_K (gradH X) (gradH Y))
          (sumH_K (gradW X) (gradW Y)) (sumD_K (gradW X) (gradW Y))

def lossR (X Y : Field) : EReal :=
  combine (sumW_R (gradD X) (gradD Y)) (sumH_R (gradD X) (gradD Y))
          (sumW_R (gradH X) (gradH Y)) (sumD_R (gradH X) (gradH Y))
          (sumH_R (gradW X) (gradW Y)) (sumD_R (gradW X) (gradW Y))

abbrev S5 : Shape := ⟨5, ![2, 1, 160, 160, 160]⟩

def fld (x : S5.Idx → EReal) : Field := fun b d h w => x (ValueIdx.ix5 b (0 : Fin 1) d h w)

def Finite (X : Field) : Prop := ∀ b d h w, ∃ r : ℝ, X b d h w = (r : EReal)

end Cert.Spec

end
-- ==== Proof.KI.TailFn.lean ====
import proofs.«415577_j83279415869695_3_alg».proof.Proof.Gen.KernelIdeal.Launch
import proofs.«415577_j83279415869695_3_alg».proof.Proof.Spec
import Idealize.ShloMosaic.PureOps.Ideal.Laws
import Idealize.ShloMosaic.Lib.Pipeline.Value

noncomputable section

namespace Cert.KernelIdeal.Val

open Idealize.ShloMosaic
open Cert.KernelIdeal.Gen

variable {F : FTy → Type} [FloatOps F] [Named F]

def tailRed (o : (⟨S2x1x6, .f32⟩ : BufTy).Contents (Elt F)) : (⟨S6, .f32⟩ : BufTy).Contents (Elt F) :=
  Host.reduceAdd (F := F) ((fun i => shapeCast S2x6 o shapeCasts_S2x1x6_S2x6 i) : (⟨S2x6, .f32⟩ : BufTy).Contents (Elt F))
    (constant (F := F) S_ .f32 0x00000000#32) reducesTo_S2x6_S6_d0 h_S_

def tailE0 (o : (⟨S2x1x6, .f32⟩ : BufTy).Contents (Elt F)) : (⟨S_, .f32⟩ : BufTy).Contents (Elt F) := fun i => shapeCast S_ (extractStridedSlice S1 ![0] (tailRed o) slices_S6_S1_0) shapeCasts_S1_S_ i
def tailE1 (o : (⟨S2x1x6, .f32⟩ : BufTy).Contents (Elt F)) : (⟨S_, .f32⟩ : BufTy).Contents (Elt F) := fun i => shapeCast S_ (extractStridedSlice S1 ![1] (tailRed o) slices_S6_S1_1) shapeCasts_S1_S_ i
def tailE2 (o : (⟨S2x1x6, .f32⟩ : BufTy).Contents (Elt F)) : (⟨S_, .f32⟩ : BufTy).Contents (Elt F) := fun i => shapeCast S_ (extractStridedSlice S1 ![2] (tailRed o) slices_S6_S1_2) shapeCasts_S1_S_ i
def tailE3 (o : (⟨S2x1x6, .f32⟩ : BufTy).Contents (Elt F)) : (⟨S_, .f32⟩ : BufTy).Contents (Elt F) := fun i => shapeCast S_ (extractStridedSlice S1 ![3] (tailRed o) slices_S6_S1_3) shapeCasts_S1_S_ i
def tailE4 (o : (⟨S2x1x6, .f32⟩ : BufTy).Contents (Elt F)) : (⟨S_, .f32⟩ : BufTy).Contents (Elt F) := fun i => shapeCast S_ (extractStridedSlice S1 ![4] (tailRed o) slices_S6_S1_4) shapeCasts_S1_S_ i
def tailE5 (o : (⟨S2x1x6, .f32⟩ : BufTy).Contents (Elt F)) : (⟨S_, .f32⟩ : BufTy).Contents (Elt F) := fun i => shapeCast S_ (extractStridedSlice S1 ![5] (tailRed o) slices_S6_S1_5) shapeCasts_S1_S_ i

def tailPair (x y : (⟨S_, .f32⟩ : BufTy).Contents (Elt F)) : (⟨S_, .f32⟩ : BufTy).Contents (Elt F) :=
  Host.negf (F := F) (addf (F := F) (Host.divf (F := F) x (constant (F := F) S_ .f32 0x43A00000#32))
    (Host.divf (F := F) y (constant (F := F) S_ .f32 0x43A00000#32)))

def tailFn (o : (⟨S2x1x6, .f32⟩ : BufTy).Contents (Elt F)) : (⟨S_, .f32⟩ : BufTy).Contents (Elt F) :=
  Host.divf (F := F)
    (addf (F := F) (addf (F := F) (tailPair (tailE0 o) (tailE1 o)) (tailPair (tailE2 o) (tailE4 o)))
      (tailPair (tailE3 o) (tailE5 o)))
    (constant (F := F) S_ .f32 0x40400000#32)

theorem reduces_S2x6_S6 : S2x6.Reduces [0] S6 := by decide

theorem tailRed_ideal (o : (⟨S2x1x6, .f32⟩ : BufTy).Contents (Elt Ideal)) (k : Fin 6) :
    tailRed (F := Ideal) o (ValueIdx.ix1 k) = ∑ b : Fin 2, o (ValueIdx.ix3 b 0 k) := by
  unfold tailRed Host.reduceAdd
  refine (Ideal.hostReduceAdd_single reducesTo_S2x6_S6_d0 reduces_S2x6_S6 _ _ (ValueIdx.ix1 k)).trans ?_
  rw [show (constant (F := Ideal) S_ .f32 0x00000000#32 (Shape.Idx.first h_S_)) = 0 from Ideal.ofBits_zero_f32, zero_add]
  show ∑ b : Fin 2, _ = _
  refine Finset.sum_congr rfl (fun b _ => ?_)
  refine shapeCast_apply o shapeCasts_S2x1x6_S2x6 _ (ValueIdx.ix3 b 0 k) ?_
  rw [Shape.rowMajor_val_three, Shape.rowMajor_val_two]
  show (b.val * 1 + 0) * 6 + k.val = b.val * 6 + k.val
  omega

theorem tailE0_ideal (o : (⟨S2x1x6, .f32⟩ : BufTy).Contents (Elt Ideal)) :
    tailE0 (F := Ideal) o = fun _ => ∑ b : Fin 2, o (ValueIdx.ix3 b 0 0) := by
  funext i
  unfold tailE0
  refine (shapeCast_apply _ shapeCasts_S1_S_ i (ValueIdx.ix1 (0 : Fin 1)) ?_).trans ?_
  · rw [Shape.rowMajor_val_one]
    exact (Shape.rowMajorPi_zero _ i).symm
  refine (extractStridedSlice_apply ![0] _ slices_S6_S1_0 (ValueIdx.ix1 (0 : Fin 1)) (ValueIdx.ix1 (0 : Fin 6)) ?_).trans ?_
  · intro a
    match a with
    | ⟨0, _⟩ => rfl
  exact tailRed_ideal o 0

theorem tailE1_ideal (o : (⟨S2x1x6, .f32⟩ : BufTy).Contents (Elt Ideal)) :
    tailE1 (F := Ideal) o = fun _ => ∑ b : Fin 2, o (ValueIdx.ix3 b 0 1) := by
  funext i
  unfold tailE1
  refine (shapeCast_apply _ shapeCasts_S1_S_ i (ValueIdx.ix1 (0 : Fin 1)) ?_).trans ?_
  · rw [Shape.rowMajor_val_one]
    exact (Shape.rowMajorPi_zero _ i).symm
  refine (extractStridedSlice_apply ![1] _ slices_S6_S1_1 (ValueIdx.ix1 (0 : Fin 1)) (ValueIdx.ix1 (1 : Fin 6)) ?_).trans ?_
  · intro a
    match a with
    | ⟨0, _⟩ => rfl
  exact tailRed_ideal o 1

theorem tailE2_ideal (o : (⟨S2x1x6, .f32⟩ : BufTy).Contents (Elt Ideal)) :
    tailE2 (F := Ideal) o = fun _ => ∑ b : Fin 2, o (ValueIdx.ix3 b 0 2) := by
  funext i
  unfold tailE2
  refine (shapeCast_apply _ shapeCasts_S1_S_ i (ValueIdx.ix1 (0 : Fin 1)) ?_).trans ?_
  · rw [Shape.rowMajor_val_one]
    exact (Shape.rowMajorPi_zero _ i).symm
  refine (extractStridedSlice_apply ![2] _ slices_S6_S1_2 (ValueIdx.ix1 (0 : Fin 1)) (ValueIdx.ix1 (2 : Fin 6)) ?_).trans ?_
  · intro a
    match a with
    | ⟨0, _⟩ => rfl
  exact tailRed_ideal o 2

theorem tailE3_ideal (o : (⟨S2x1x6, .f32⟩ : BufTy).Contents (Elt Ideal)) :
    tailE3 (F := Ideal) o = fun _ => ∑ b : Fin 2, o (ValueIdx.ix3 b 0 3) := by
  funext i
  unfold tailE3
  refine (shapeCast_apply _ shapeCasts_S1_S_ i (ValueIdx.ix1 (0 : Fin 1)) ?_).trans ?_
  · rw [Shape.rowMajor_val_one]
    exact (Shape.rowMajorPi_zero _ i).symm
  refine (extractStridedSlice_apply ![3] _ slices_S6_S1_3 (ValueIdx.ix1 (0 : Fin 1)) (ValueIdx.ix1 (3 : Fin 6)) ?_).trans ?_
  · intro a
    match a with
    | ⟨0, _⟩ => rfl
  exact tailRed_ideal o 3

theorem tailE4_ideal (o : (⟨S2x1x6, .f32⟩ : BufTy).Contents (Elt Ideal)) :
    tailE4 (F := Ideal) o = fun _ => ∑ b : Fin 2, o (ValueIdx.ix3 b 0 4) := by
  funext i
  unfold tailE4
  refine (shapeCast_apply _ shapeCasts_S1_S_ i (ValueIdx.ix1 (0 : Fin 1)) ?_).trans ?_
  · rw [Shape.rowMajor_val_one]
    exact (Shape.rowMajorPi_zero _ i).symm
  refine (extractStridedSlice_apply ![4] _ slices_S6_S1_4 (ValueIdx.ix1 (0 : Fin 1)) (ValueIdx.ix1 (4 : Fin 6)) ?_).trans ?_
  · intro a
    match a with
    | ⟨0, _⟩ => rfl
  exact tailRed_ideal o 4

theorem tailE5_ideal (o : (⟨S2x1x6, .f32⟩ : BufTy).Contents (Elt Ideal)) :
    tailE5 (F := Ideal) o = fun _ => ∑ b : Fin 2, o (ValueIdx.ix3 b 0 5) := by
  funext i
  unfold tailE5
  refine (shapeCast_apply _ shapeCasts_S1_S_ i (ValueIdx.ix1 (0 : Fin 1)) ?_).trans ?_
  · rw [Shape.rowMajor_val_one]
    exact (Shape.rowMajorPi_zero _ i).symm
  refine (extractStridedSlice_apply ![5] _ slices_S6_S1_5 (ValueIdx.ix1 (0 : Fin 1)) (ValueIdx.ix1 (5 : Fin 6)) ?_).trans ?_
  · intro a
    match a with
    | ⟨0, _⟩ => rfl
  exact tailRed_ideal o 5

theorem tailFn_ideal (o : (⟨S2x1x6, .f32⟩ : BufTy).Contents (Elt Ideal)) :
    tailFn (F := Ideal) o = fun _ => Cert.Spec.combine
      (∑ b : Fin 2, o (ValueIdx.ix3 b 0 0)) (∑ b : Fin 2, o (ValueIdx.ix3 b 0 1)) (∑ b : Fin 2, o (ValueIdx.ix3 b 0 2))
      (∑ b : Fin 2, o (ValueIdx.ix3 b 0 4)) (∑ b : Fin 2, o (ValueIdx.ix3 b 0 3)) (∑ b : Fin 2, o (ValueIdx.ix3 b 0 5)) := by
  unfold tailFn tailPair
  rw [tailE0_ideal, tailE1_ideal, tailE2_ideal, tailE3_ideal, tailE4_ideal, tailE5_ideal]
  rfl

end Cert.KernelIdeal.Val

end
-- ==== Proof.KI.Tail.lean ====
import proofs.«415577_j83279415869695_3_alg».proof.Proof.KI.Launch
import proofs.«415577_j83279415869695_3_alg».proof.Proof.KI.TailFn

noncomputable section

namespace Cert.KernelIdeal.Frm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ)

section Fold

open Idealize.ShloMosaic.StableHlo

theorem after_hostOps1 (W : Valuation τ sig (Elt F)) :
    StableHlo.after (hostOps1 (F := F)) W (Proc.devRef .tc main_v29) = Cert.KernelIdeal.Val.tailFn (W (Proc.devRef .tc main_v0)) := by
  after_results_simp; rfl

theorem hostTail_eq (c : Dev nD) (o : Buf (Elt F) ((c : Thread nD τ).loc main_v0)) :
    hostTail m c o = Cert.KernelIdeal.Val.tailFn o := by
  unfold hostTail
  rw [after_hostOps1, exitVal_out]

end Fold

end Cert.KernelIdeal.Frm

end
-- ==== Proof.TileSpec.lean ====
import proofs.«415577_j83279415869695_3_alg».proof.Proof.Spec

noncomputable section

namespace Cert.Spec.Tile

open Cert.Spec

abbrev Blk := Fin 32 → Fin 160 → Fin 160 → EReal

abbrev Pln := Fin 160 → Fin 160 → EReal

def dMain (B : Blk) : Fin 31 → Fin 160 → Fin 160 → EReal := fun r h w => B r.succ h w - B r.castSucc h w

def dSeam (last : Bool) (B : Blk) (N : Pln) : Pln := fun h w => if last then 0 else N h w - B (31 : Fin 32) h w

def dH (B : Blk) : Blk := fun r h w => if hh : h.val + 1 < 160 then B r ⟨h.val + 1, hh⟩ w - B r h w else 0

def dW (B : Blk) : Blk := fun r h w => if hw : w.val + 1 < 160 then B r h ⟨w.val + 1, hw⟩ - B r h w else 0

def xw (last : Bool) (B C : Blk) (N M : Pln) : EReal :=
  (∑ r, ∑ h, cosK (fun w => dMain B r h w) (fun w => dMain C r h w))
    + ∑ h, cosK (fun w => dSeam last B N h w) (fun w => dSeam last C M h w)

def xh (last : Bool) (B C : Blk) (N M : Pln) : EReal :=
  (∑ r, ∑ w, cosK (fun h => dMain B r h w) (fun h => dMain C r h w))
    + ∑ w, cosK (fun h => dSeam last B N h w) (fun h => dSeam last C M h w)

def yw (B C : Blk) : EReal := ∑ r, ∑ h, cosK (fun w => dH B r h w) (fun w => dH C r h w)

def zh (B C : Blk) : EReal := ∑ r, ∑ w, cosK (fun h => dW B r h w) (fun h => dW C r h w)

def sq (G : Blk) : Pln := fun h w => ∑ r, G r h w * G r h w

def dot (G G' : Blk) : Pln := fun h w => ∑ r, G r h w * G' r h w

def fin (p f2 t2 : Pln) : EReal := ∑ h, ∑ w, p h w * rs (f2 h w) * rs (t2 h w)

def blk (X : Field) (b : Fin 2) (dt : Fin 5) : Blk := fun r h w => X b ⟨32 * dt.val + r.val, by omega⟩ h w

def nxt (X : Field) (b : Fin 2) (dt : Fin 5) : Pln := fun h w => X b ⟨min (32 * (dt.val + 1)) 159, by omega⟩ h w

end Cert.Spec.Tile

end
-- ==== Proof.KI.PayBase.lean ====
import proofs.«415577_j83279415869695_3_alg».proof.Proof.TileSpec
import proofs.«415577_j83279415869695_3_alg».proof.Proof.Gen.KernelIdeal.Skeleton

noncomputable section

namespace Cert.KernelIdeal.Pay

open Idealize.ShloMosaic Cert.KernelIdeal Cert.Spec Cert.Spec.Tile

def toBlk (x : Vec Ideal S1x1x32x160x160 .f32) : Blk := fun r h w => x (ValueIdx.ix5 (0 : Fin 1) (0 : Fin 1) r h w)

def toPln (x : Vec Ideal S1x1x1x160x160 .f32) : Pln := fun h w => x (ValueIdx.ix5 (0 : Fin 1) (0 : Fin 1) (0 : Fin 1) h w)

end Cert.KernelIdeal.Pay

end
-- ==== Proof.KI.PayLemmas.lean ====
import proofs.«415577_j83279415869695_3_alg».proof.Proof.KI.PayBase
import Idealize.ShloMosaic.PureOps.Ideal.Laws
import Idealize.ShloMosaic.PureOps.IdealRules
import Idealize.ShloMosaic.Lib.Pipeline.Value
import Idealize.ShloMosaic.Lib.ValueLayout
import Idealize.ShloMosaic.Lib.ValueIdxRank1
import Idealize.ShloMosaic.Lib.KernelVsHost

noncomputable section

namespace Cert.KernelIdeal.Pay

open Idealize.ShloMosaic Idealize.ShloMosaic.ValueIdx Cert.KernelIdeal Cert.Spec Cert.Spec.Tile

theorem named_epsSq : Named.named (F := Ideal) κ "eps_sq" (φ := .f32) 0x179ABE15#32 = epsSq :=
  IdealRules.named_const.ideal_named_scalar _ _ _ _ rfl

-- The clamp constant is epsSq, so each factor is rs of its sum; cosK is such a product.
theorem rs_mul {p f2 t2 p' f2' t2' : EReal} (hp : p = p') (hf : f2 = f2') (ht : t2 = t2') :
    p * Ideal.rsqrt (max f2 (Named.named (F := Ideal) κ "eps_sq" (φ := .f32) 0x179ABE15#32))
        * Ideal.rsqrt (max t2 (Named.named (F := Ideal) κ "eps_sq" (φ := .f32) 0x179ABE15#32)) = p' * rs f2' * rs t2' := by
  rw [hp, hf, ht, named_epsSq]; rfl

theorem rs_apply {s : Shape} (p f2 t2 : FVec Ideal s .f32) (i : s.Idx) :
    mulf (mulf p (rsqrt (maximumf f2 (broadcast s (Named.named (F := Ideal) κ "eps_sq" (φ := .f32) 0x179ABE15#32)))))
        (rsqrt (maximumf t2 (broadcast s (Named.named (F := Ideal) κ "eps_sq" (φ := .f32) 0x179ABE15#32)))) i
      = p i * rs (f2 i) * rs (t2 i) :=
  rs_mul rfl rfl rfl

theorem blk_apply (x : Vec Ideal S1x1x32x160x160 .f32) (r : Fin 32) (h w : Fin 160) :
    Gen.k0_pay22 x (ix3 r h w) = toBlk x r h w :=
  congrArg x (reshapeEquiv_ix3_11abc _ r h w)

theorem pln_apply (x : Vec Ideal S1x1x1x160x160 .f32) (h w : Fin 160) :
    Gen.k0_pay24 x (ix2 h w) = toPln x h w :=
  shapeCast_apply x _ _ (ix5 (0 : Fin 1) (0 : Fin 1) (0 : Fin 1) h w) (by
    rw [Shape.rowMajor_val_five, Shape.rowMajor_val_two]
    show (((0 * 1 + 0) * 1 + 0) * 160 + h.val) * 160 + w.val = h.val * 160 + w.val
    omega)

-- A slice reads the source at the coordinates shifted by the offsets.
theorem slice3_apply {n a b n' a' b' : Nat} {α : Type} (o : Fin 3 → Nat) (X : (⟨3, ![n, a, b]⟩ : Shape).Idx → α)
    (hs : (⟨3, ![n, a, b]⟩ : Shape).Slices o ⟨3, ![n', a', b']⟩) (r : Fin n') (h : Fin a') (w : Fin b')
    (r₁ : Fin n) (h₁ : Fin a) (w₁ : Fin b) (e0 : r₁.val = o 0 + r.val) (e1 : h₁.val = o 1 + h.val)
    (e2 : w₁.val = o 2 + w.val) :
    extractStridedSlice ⟨3, ![n', a', b']⟩ o X hs (ix3 r h w) = X (ix3 r₁ h₁ w₁) :=
  extractStridedSlice_apply _ _ _ _ _ fun c => match c with | ⟨0, _⟩ => e0 | ⟨1, _⟩ => e1 | ⟨2, _⟩ => e2

section Sums
variable {n a b : Nat} {v : FVec Ideal ⟨3, ![n, a, b]⟩ .f32} {g : Fin n → Fin a → Fin b → EReal}
  (hv : ∀ r p q, v (ix3 r p q) = g r p q) {u : FVec Ideal ⟨2, ![a, b]⟩ .f32} {k : Fin a → Fin b → EReal}
  (hu : ∀ p q, u (ix2 p q) = k p q)
include hv in
theorem sum3_ax2 (h : Shape.Reduces ⟨3, ![n, a, b]⟩ [2] ⟨2, ![n, a]⟩) (r : Fin n) (p : Fin a) :
    multiReduction .add [2] ⟨2, ![n, a]⟩ v 0x00000000#32 h (.inl rfl) rfl (ix2 r p) = ∑ q, g r p q :=
  (Ideal.multiReduction_add_single v _ h _ _ _).trans (Finset.sum_congr rfl fun q _ =>
    Eq.trans (b := v (ix3 r p q)) (congrArg v (funext fun c => Fin.ext (match c with
      | ⟨0, _⟩ => rfl | ⟨1, _⟩ => rfl | ⟨2, _⟩ => rfl))) (hv r p q))
include hv in
theorem sum3_ax1 (h : Shape.Reduces ⟨3, ![n, a, b]⟩ [1] ⟨2, ![n, b]⟩) (r : Fin n) (q : Fin b) :
    multiReduction .add [1] ⟨2, ![n, b]⟩ v 0x00000000#32 h (.inl rfl) rfl (ix2 r q) = ∑ p, g r p q :=
  (Ideal.multiReduction_add_single v _ h _ _ _).trans (Finset.sum_congr rfl fun p _ =>
    Eq.trans (b := v (ix3 r p q)) (congrArg v (funext fun c => Fin.ext (match c with
      | ⟨0, _⟩ => rfl | ⟨1, _⟩ => rfl | ⟨2, _⟩ => rfl))) (hv r p q))
include hv in
theorem sum3_ax0 (h : Shape.Reduces ⟨3, ![n, a, b]⟩ [0] ⟨2, ![a, b]⟩) (p : Fin a) (q : Fin b) :
    multiReduction .add [0] ⟨2, ![a, b]⟩ v 0x00000000#32 h (.inl rfl) rfl (ix2 p q) = ∑ r, g r p q :=
  (Ideal.multiReduction_add_single v _ h _ _ _).trans (Finset.sum_congr rfl fun r _ =>
    Eq.trans (b := v (ix3 r p q)) (congrArg v (funext fun c => Fin.ext (match c with
      | ⟨0, _⟩ => rfl | ⟨1, _⟩ => rfl | ⟨2, _⟩ => rfl))) (hv r p q))
include hu in
theorem sum2_ax1 (h : Shape.Reduces ⟨2, ![a, b]⟩ [1] ⟨1, ![a]⟩) (p : Fin a) :
    multiReduction .add [1] ⟨1, ![a]⟩ u 0x00000000#32 h (.inl rfl) rfl (ix1 p) = ∑ q, k p q :=
  (Ideal.multiReduction_add_single u _ h _ _ _).trans (Finset.sum_congr rfl fun q _ =>
    Eq.trans (b := u (ix2 p q)) (congrArg u (funext fun c => Fin.ext (match c with
      | ⟨0, _⟩ => rfl | ⟨1, _⟩ => rfl))) (hu p q))
include hu in
theorem sum2_ax0 (h : Shape.Reduces ⟨2, ![a, b]⟩ [0] ⟨1, ![b]⟩) (q : Fin b) :
    multiReduction .add [0] ⟨1, ![b]⟩ u 0x00000000#32 h (.inl rfl) rfl (ix1 q) = ∑ p, k p q :=
  (Ideal.multiReduction_add_single u _ h _ _ _).trans (Finset.sum_congr rfl fun p _ =>
    Eq.trans (b := u (ix2 p q)) (congrArg u (funext fun c => Fin.ext (match c with
      | ⟨0, _⟩ => rfl | ⟨1, _⟩ => rfl))) (hu p q))

-- A total is unchanged by re-shaping, since a re-shape only re-indexes.
theorem total_cast {s s' : Shape} {axes : List (Fin s'.rank)} (x : FVec Ideal s .f32) (hc : s.ShapeCasts s')
    (h : s'.Reduces axes S1) (j : S1.Idx) :
    multiReduction .add axes S1 (shapeCast s' x hc) 0x00000000#32 h (.inl rfl) rfl j = ∑ i, x i :=
  (Ideal.multiReduction_add_total _ _ h (fun c => match c with | ⟨0, _⟩ => rfl) _ _ j).trans
    (Equiv.sum_comp (Shape.reshapeEquiv hc) x)
include hu in
theorem total2 (hc : (⟨2, ![a, b]⟩ : Shape).ShapeCasts ⟨3, ![1, a, b]⟩) (h : Shape.Reduces ⟨3, ![1, a, b]⟩ [1, 2] S1)
    (h2 : S1.ShapeCasts S1x1x1) (h3 : ∀ c, (![0, 0, 0] : Fin 3 → Nat) c < S1x1x1.size c) :
    extractAt ![0, 0, 0] (shapeCast S1x1x1
      (multiReduction .add [1, 2] S1 (shapeCast ⟨3, ![1, a, b]⟩ u hc) 0x00000000#32 h (.inl rfl) rfl) h2) h3
      = ∑ p, ∑ q, k p q :=
  (total_cast u hc h _).trans ((sum_idx2 u).trans
    (Finset.sum_congr rfl fun p _ => Finset.sum_congr rfl fun q _ => hu p q))
theorem total1 {y : FVec Ideal ⟨1, ![a]⟩ .f32} {l : Fin a → EReal} (hy : ∀ p, y (ix1 p) = l p)
    (hc : (⟨1, ![a]⟩ : Shape).ShapeCasts ⟨2, ![1, a]⟩) (h : Shape.Reduces ⟨2, ![1, a]⟩ [1] S1)
    (h2 : S1.ShapeCasts S1x1) (h3 : ∀ c, (![0, 0] : Fin 2 → Nat) c < S1x1.size c) :
    extractAt ![0, 0] (shapeCast S1x1
      (multiReduction .add [1] S1 (shapeCast ⟨2, ![1, a]⟩ y hc) 0x00000000#32 h (.inl rfl) rfl) h2) h3 = ∑ p, l p :=
  (total_cast y hc h _).trans
    ((Equiv.sum_comp idxEquiv1.symm y).symm.trans (Finset.sum_congr rfl fun p _ => hy p))
end Sums

-- A 1 × 1 value has one entry, so adding a scalar to it adds the scalar to that entry.
theorem scalar_acc {v t : Ideal .f32} (hv : v = t) (a : Vec Ideal S1x1 .f32) (hc : S1x1.ShapeCasts S1x1) :
    shapeCast S1x1 (addf a (broadcast S1x1 v)) hc = fun _ => a (ix2 0 0) + t :=
  (shapeCast_self _ _).trans (funext fun i => congrArg₂ (· + ·)
    (congrArg a ((eq_ix2 i).trans (congrArg₂ ix2 (Subsingleton.elim (α := Fin 1) _ _)
      (Subsingleton.elim (α := Fin 1) _ _)))) hv)

end Cert.KernelIdeal.Pay

end
-- ==== Proof.KI.PayX.lean ====
import proofs.«415577_j83279415869695_3_alg».proof.Proof.KI.PayLemmas

noncomputable section

namespace Cert.KernelIdeal.Pay

open Idealize.ShloMosaic Idealize.ShloMosaic.ValueIdx Cert.KernelIdeal Cert.Spec Cert.Spec.Tile

theorem dmain_apply (x : Vec Ideal S1x1x32x160x160 .f32) (r : Fin 31) (h w : Fin 160) :
    Gen.k0_pay26 x (ix3 r h w) = dMain (toBlk x) r h w :=
  congrArg₂ (· - ·)
    ((slice3_apply ![1, 0, 0] _ _ r h w r.succ h w (Nat.add_comm _ _) (Nat.zero_add _).symm (Nat.zero_add _).symm).trans
      (blk_apply x _ _ _))
    ((slice3_apply ![0, 0, 0] _ _ r h w r.castSucc h w (Nat.zero_add _).symm (Nat.zero_add _).symm
      (Nat.zero_add _).symm).trans
      (blk_apply x _ _ _))

theorem dmul_apply (x0 x1 : Vec Ideal S1x1x32x160x160 .f32) (r : Fin 31) (h w : Fin 160) :
    Gen.k0_pay28 x0 x1 (ix3 r h w) = dMain (toBlk x0) r h w * dMain (toBlk x1) r h w :=
  congrArg₂ (· * ·) (dmain_apply x0 r h w) (dmain_apply x1 r h w)

section Seam
variable {last : Bool} {v1 : BitVec 1} (hv1 : v1 = if last then 1#1 else 0#1)
include hv1

-- At the last tile the select takes the zero plane; elsewhere the next slice less the tile's last.
theorem seam_apply (x : Vec Ideal S1x1x32x160x160 .f32) (y : Vec Ideal S1x1x1x160x160 .f32) (h w : Fin 160) :
    Gen.k0_pay37 v1 (Gen.k0_pay22 x) (Gen.k0_pay24 y) (ix2 h w) = dSeam last (toBlk x) (toPln y) h w := by
  subst hv1
  cases last
  · exact (congrFun (select_zero _ _) _).trans (congrArg₂ (· - ·) (pln_apply y h w)
      ((shapeCast_1ab_ab_apply _ _ h w).trans ((slice3_apply ![31, 0, 0] _ _ 0 h w 31 h w rfl (Nat.zero_add _).symm
        (Nat.zero_add _).symm).trans (blk_apply x _ _ _))))
  · exact (congrFun (select_one _ _) _).trans Ideal.ofBits_zero_f32

theorem smul_apply (x0 x1 : Vec Ideal S1x1x32x160x160 .f32) (y0 y1 : Vec Ideal S1x1x1x160x160 .f32) (h w : Fin 160) :
    Gen.k0_pay39 v1 (Gen.k0_pay22 x0) (Gen.k0_pay23 x1) (Gen.k0_pay24 y0) (Gen.k0_pay25 y1) (ix2 h w)
      = dSeam last (toBlk x0) (toPln y0) h w * dSeam last (toBlk x1) (toPln y1) h w :=
  congrArg₂ (· * ·) (seam_apply hv1 x0 y0 h w) (seam_apply hv1 x1 y1 h w)
end Seam

theorem stored_xw (last : Bool) (v1 : BitVec 1) (hv1 : v1 = if last then 1#1 else 0#1)
    (x0 x1 : Vec Ideal S1x1x32x160x160 .f32) (x2 x3 : Vec Ideal S1x1x1x160x160 .f32) (a : Vec Ideal S1x1 .f32) :
    Gen.k0_pay1 (Gen.k0_pay65
        (Gen.k0_pay43 (Gen.k0_pay34 (Gen.k0_pay31 x0 x1) (Gen.k0_pay32 x0) (Gen.k0_pay33 x1))
          (Gen.k0_pay42 v1 (Gen.k0_pay22 x0) (Gen.k0_pay23 x1) (Gen.k0_pay24 x2) (Gen.k0_pay25 x3))) a)
      = fun _ => a (ValueIdx.ix2 0 0) + Cert.Spec.Tile.xw last (toBlk x0) (toBlk x1) (toPln x2) (toPln x3) :=
  scalar_acc (congrArg₂ (· + ·)
    (total2 (fun r h => rs_mul (sum3_ax2 (dmul_apply x0 x1) _ r h) (sum3_ax2 (dmul_apply x0 x0) _ r h)
      (sum3_ax2 (dmul_apply x1 x1) _ r h)) _ _ _ _)
    (total1 (fun h => rs_mul (sum2_ax1 (smul_apply hv1 x0 x1 x2 x3) _ h) (sum2_ax1 (smul_apply hv1 x0 x0 x2 x2) _ h)
      (sum2_ax1 (smul_apply hv1 x1 x1 x3 x3) _ h)) _ _ _ _)) a _

theorem stored_xh (last : Bool) (v1 : BitVec 1) (hv1 : v1 = if last then 1#1 else 0#1)
    (x0 x1 : Vec Ideal S1x1x32x160x160 .f32) (x2 x3 : Vec Ideal S1x1x1x160x160 .f32) (a : Vec Ideal S1x1 .f32) :
    Gen.k0_pay2
        (Gen.k0_pay44 (Gen.k0_pay35 (Gen.k0_pay28 x0 x1) (Gen.k0_pay29 x0) (Gen.k0_pay30 x1))
          (Gen.k0_pay39 v1 (Gen.k0_pay22 x0) (Gen.k0_pay23 x1) (Gen.k0_pay24 x2) (Gen.k0_pay25 x3))
          (Gen.k0_pay40 v1 (Gen.k0_pay22 x0) (Gen.k0_pay24 x2))
          (Gen.k0_pay41 v1 (Gen.k0_pay23 x1) (Gen.k0_pay25 x3))) a
      = fun _ => a (ValueIdx.ix2 0 0) + Cert.Spec.Tile.xh last (toBlk x0) (toBlk x1) (toPln x2) (toPln x3) :=
  scalar_acc (congrArg₂ (· + ·)
    (total2 (fun r w => rs_mul (sum3_ax1 (dmul_apply x0 x1) _ r w) (sum3_ax1 (dmul_apply x0 x0) _ r w)
      (sum3_ax1 (dmul_apply x1 x1) _ r w)) _ _ _ _)
    (total1 (fun w => rs_mul (sum2_ax0 (smul_apply hv1 x0 x1 x2 x3) _ w) (sum2_ax0 (smul_apply hv1 x0 x0 x2 x2) _ w)
      (sum2_ax0 (smul_apply hv1 x1 x1 x3 x3) _ w)) _ _ _ _)) a _

end Cert.KernelIdeal.Pay

end
-- ==== Proof.KI.PayYZ.lean ====
import proofs.«415577_j83279415869695_3_alg».proof.Proof.KI.PayLemmas

noncomputable section

namespace Cert.KernelIdeal.Pay

open Idealize.ShloMosaic Idealize.ShloMosaic.ValueIdx Cert.KernelIdeal Cert.Spec Cert.Spec.Tile

section HW
variable (x : Vec Ideal S1x1x32x160x160 .f32) (r : Fin 32) (h w : Fin 160)

-- Below the last row the first piece holds the difference of two shifted slices; the last row is the zero piece.
theorem dH_apply : Gen.k0_pay45 (Gen.k0_pay22 x) (ix3 r h w) = dH (toBlk x) r h w := by
  unfold dH Gen.k0_pay45
  by_cases hh : h.val + 1 < 160
  · rw [dif_pos hh]
    have hi : h.val < 159 := by omega
    refine (concatenate_pair_apply_left (s₁ := S32x159x160) (s₂ := S32x1x160) (1 : Fin 3) _ _ _ (ix3 r h w)
      rfl (ix3 r ⟨h.val, hi⟩ w) fun b => match b with | ⟨0, _⟩ => rfl | ⟨1, _⟩ => rfl | ⟨2, _⟩ => rfl).trans ?_
    exact congrArg₂ (· - ·)
      ((slice3_axis1_apply 1 _ _ r ⟨h.val, hi⟩ w ⟨h.val + 1, hh⟩ (Nat.add_comm _ _)).trans (blk_apply x _ _ _))
      ((slice3_axis1_apply 0 _ _ r ⟨h.val, hi⟩ w h (Nat.zero_add _).symm).trans (blk_apply x _ _ _))
  · rw [dif_neg hh]
    exact (concatenate_pair_apply_right (s₁ := S32x159x160) (s₂ := S32x1x160) (1 : Fin 3) _ _ _ (ix3 r h w) rfl rfl
      (ix3 r (0 : Fin 1) w)
      (fun b hb => match b with | ⟨0, _⟩ => rfl | ⟨1, _⟩ => absurd rfl hb | ⟨2, _⟩ => rfl)
      (by show 0 + 159 = h.val; omega)).trans sitofp_zero

theorem dW_apply : Gen.k0_pay55 (Gen.k0_pay22 x) (ix3 r h w) = dW (toBlk x) r h w := by
  unfold dW Gen.k0_pay55
  by_cases hw : w.val + 1 < 160
  · rw [dif_pos hw]
    have hi : w.val < 159 := by omega
    refine (concatenate_pair_apply_left (s₁ := S32x160x159) (s₂ := S32x160x1) (2 : Fin 3) _ _ _ (ix3 r h w)
      rfl (ix3 r h ⟨w.val, hi⟩) fun b => match b with | ⟨0, _⟩ => rfl | ⟨1, _⟩ => rfl | ⟨2, _⟩ => rfl).trans ?_
    exact congrArg₂ (· - ·)
      ((slice3_apply ![0, 0, 1] _ _ r h ⟨w.val, hi⟩ r h ⟨w.val + 1, hw⟩ (Nat.zero_add _).symm (Nat.zero_add _).symm
        (Nat.add_comm _ _)).trans (blk_apply x _ _ _))
      ((slice3_apply ![0, 0, 0] _ _ r h ⟨w.val, hi⟩ r h w (Nat.zero_add _).symm (Nat.zero_add _).symm
        (Nat.zero_add _).symm).trans (blk_apply x _ _ _))
  · rw [dif_neg hw]
    exact (concatenate_pair_apply_right (s₁ := S32x160x159) (s₂ := S32x160x1) (2 : Fin 3) _ _ _ (ix3 r h w) rfl rfl
      (ix3 r h (0 : Fin 1))
      (fun b hb => match b with | ⟨0, _⟩ => rfl | ⟨1, _⟩ => rfl | ⟨2, _⟩ => absurd rfl hb)
      (by show 0 + 159 = w.val; omega)).trans sitofp_zero
end HW

theorem hmul_apply (x0 x1 : Vec Ideal S1x1x32x160x160 .f32) (r : Fin 32) (h w : Fin 160) :
    Gen.k0_pay47 (Gen.k0_pay22 x0) (Gen.k0_pay23 x1) (ix3 r h w) = dH (toBlk x0) r h w * dH (toBlk x1) r h w :=
  congrArg₂ (· * ·) (dH_apply x0 r h w) (dH_apply x1 r h w)

theorem wmul_apply (x0 x1 : Vec Ideal S1x1x32x160x160 .f32) (r : Fin 32) (h w : Fin 160) :
    Gen.k0_pay57 (Gen.k0_pay22 x0) (Gen.k0_pay23 x1) (ix3 r h w) = dW (toBlk x0) r h w * dW (toBlk x1) r h w :=
  congrArg₂ (· * ·) (dW_apply x0 r h w) (dW_apply x1 r h w)

-- A product summed along depth and added to a carried plane.
theorem depth_acc {n a b : Nat} {V : FVec Ideal ⟨3, ![n, a, b]⟩ .f32} {G G' : Fin n → Fin a → Fin b → EReal}
    (hV : ∀ r h w, V (ix3 r h w) = G r h w * G' r h w) (s : Vec Ideal ⟨2, ![a, b]⟩ .f32)
    (hr : Shape.Reduces ⟨3, ![n, a, b]⟩ [0] ⟨2, ![a, b]⟩) (hc : (⟨2, ![a, b]⟩ : Shape).ShapeCasts ⟨2, ![a, b]⟩) :
    shapeCast ⟨2, ![a, b]⟩ (addf s (multiReduction .add [0] ⟨2, ![a, b]⟩ V 0x00000000#32 hr (.inl rfl) rfl)) hc
      = fun j => s j + ∑ r, G r (j 0) (j 1) * G' r (j 0) (j 1) :=
  (shapeCast_self _ _).trans (funext fun j => congrArg (s j + ·)
    ((congrArg _ (eq_ix2 j)).trans (sum3_ax0 hV hr (j 0) (j 1))))

section Stored
variable (x0 x1 : Vec Ideal S1x1x32x160x160 .f32) (s : Vec Ideal S160x160 .f32) (a : Vec Ideal S1x1 .f32)

theorem stored_f2y :
    Gen.k0_pay52 (Gen.k0_pay48 (Gen.k0_pay22 x0)) s = fun j => s j + Tile.sq (Tile.dH (toBlk x0)) (j 0) (j 1) :=
  depth_acc (hmul_apply x0 x0) s _ _
theorem stored_t2y :
    Gen.k0_pay53 (Gen.k0_pay49 (Gen.k0_pay23 x1)) s = fun j => s j + Tile.sq (Tile.dH (toBlk x1)) (j 0) (j 1) :=
  depth_acc (hmul_apply x1 x1) s _ _
theorem stored_doty :
    Gen.k0_pay54 (Gen.k0_pay47 (Gen.k0_pay22 x0) (Gen.k0_pay23 x1)) s
      = fun j => s j + Tile.dot (Tile.dH (toBlk x0)) (Tile.dH (toBlk x1)) (j 0) (j 1) :=
  depth_acc (hmul_apply x0 x1) s _ _
theorem stored_f2z :
    Gen.k0_pay62 (Gen.k0_pay58 (Gen.k0_pay22 x0)) s = fun j => s j + Tile.sq (Tile.dW (toBlk x0)) (j 0) (j 1) :=
  depth_acc (wmul_apply x0 x0) s _ _
theorem stored_t2z :
    Gen.k0_pay63 (Gen.k0_pay59 (Gen.k0_pay23 x1)) s = fun j => s j + Tile.sq (Tile.dW (toBlk x1)) (j 0) (j 1) :=
  depth_acc (wmul_apply x1 x1) s _ _
theorem stored_dotz :
    Gen.k0_pay64 (Gen.k0_pay57 (Gen.k0_pay22 x0) (Gen.k0_pay23 x1)) s
      = fun j => s j + Tile.dot (Tile.dW (toBlk x0)) (Tile.dW (toBlk x1)) (j 0) (j 1) :=
  depth_acc (wmul_apply x0 x1) s _ _

theorem stored_yw :
    Gen.k0_pay3 (Gen.k0_pay51 (Gen.k0_pay50 (Gen.k0_pay22 x0) (Gen.k0_pay23 x1))) a
      = fun _ => a (ix2 (0 : Fin 1) (0 : Fin 1)) + Tile.yw (toBlk x0) (toBlk x1) :=
  scalar_acc (total2 (fun r h => rs_mul (sum3_ax2 (hmul_apply x0 x1) _ r h) (sum3_ax2 (hmul_apply x0 x0) _ r h)
    (sum3_ax2 (hmul_apply x1 x1) _ r h)) _ _ _ _) a _

theorem stored_zh :
    Gen.k0_pay4 (Gen.k0_pay61 (Gen.k0_pay58 (Gen.k0_pay22 x0)) (Gen.k0_pay59 (Gen.k0_pay23 x1))
        (Gen.k0_pay60 (Gen.k0_pay22 x0) (Gen.k0_pay23 x1))) a
      = fun _ => a (ix2 (0 : Fin 1) (0 : Fin 1)) + Tile.zh (toBlk x0) (toBlk x1) :=
  scalar_acc (total2 (fun r w => rs_mul (sum3_ax1 (wmul_apply x0 x1) _ r w) (sum3_ax1 (wmul_apply x0 x0) _ r w)
    (sum3_ax1 (wmul_apply x1 x1) _ r w)) _ _ _ _) a _
end Stored

theorem stored_yd (f2 t2 p : Vec Ideal S160x160 .f32) :
    Gen.k0_pay15 f2 t2 p
      = fun _ => Tile.fin (fun h w => p (ix2 h w)) (fun h w => f2 (ix2 h w)) (fun h w => t2 (ix2 h w)) := by
  unfold Gen.k0_pay15
  exact (shapeCast_self _ _).trans (funext fun _ => (broadcast_apply _ _).trans
    (total2 (fun h w => rs_apply p f2 t2 (ix2 h w)) _ _ _ _))

theorem stored_zd (f2 t2 p : Vec Ideal S160x160 .f32) :
    Gen.k0_pay5 (Gen.k0_pay16 f2 t2 p)
      = fun _ => Tile.fin (fun h w => p (ix2 h w)) (fun h w => f2 (ix2 h w)) (fun h w => t2 (ix2 h w)) :=
  stored_yd f2 t2 p

-- Six unit pieces laid side by side: column j is piece j.
theorem stored_out (a0 a1 a2 a3 a4 a5 : Vec Ideal S1x1 .f32) (j : Fin 6) :
    Gen.k0_pay6 a0 a1 a2 a3 a4 a5 (ix3 (0 : Fin 1) (0 : Fin 1) j)
      = (![a0, a1, a2, a3, a4, a5] j) (ix2 (0 : Fin 1) (0 : Fin 1)) := by
  unfold Gen.k0_pay6
  exact (shapeCast_ab_1ab_apply _ _ 0 0 j).trans (concatenate_ofFn_unit_apply (t := S1x6) (1 : Fin 2)
    ![a0, a1, a2, a3, a4, a5] _ rfl rfl (ix2 0 j) j rfl (ix2 0 0)
    fun b hb => match b with | ⟨0, _⟩ => rfl | ⟨1, _⟩ => absurd rfl hb)

theorem reset_1x1 :
    Gen.k0_pay7 (F := Ideal) = (fun _ => 0) ∧ Gen.k0_pay8 (F := Ideal) = (fun _ => 0) ∧
    Gen.k0_pay9 (F := Ideal) = (fun _ => 0) ∧ Gen.k0_pay10 (F := Ideal) = (fun _ => 0) ∧
    Gen.k0_pay11 (F := Ideal) = (fun _ => 0) ∧ Gen.k0_pay12 (F := Ideal) = (fun _ => 0) :=
  have h : Gen.k0_pay7 (F := Ideal) = fun _ => 0 :=
    (shapeCast_self _ _).trans (funext fun _ => Ideal.ofBits_zero_f32)
  ⟨h, h, h, h, h, h⟩

theorem reset_160 :
    Gen.k0_pay13 (F := Ideal) = (fun _ => 0) ∧ Gen.k0_pay17 (Gen.k0_pay14 (F := Ideal)) = (fun _ => 0) ∧
    Gen.k0_pay18 (F := Ideal) = (fun _ => 0) ∧ Gen.k0_pay19 (F := Ideal) = (fun _ => 0) ∧
    Gen.k0_pay20 (F := Ideal) = (fun _ => 0) ∧ Gen.k0_pay21 (F := Ideal) = (fun _ => 0) ∧
    Gen.k0_pay14 (F := Ideal) = (fun _ => 0) ∧ Gen.k0_pay36 (F := Ideal) = (fun _ => 0) :=
  have h : Gen.k0_pay13 (F := Ideal) = fun _ => 0 :=
    (shapeCast_self _ _).trans (funext fun _ => Ideal.ofBits_zero_f32)
  have h' : Gen.k0_pay14 (F := Ideal) = fun _ => 0 := funext fun _ => Ideal.ofBits_zero_f32
  ⟨h, h, h, h, h, h, h', h'⟩

end Cert.KernelIdeal.Pay

end
-- ==== Proof.KI.Pieces.lean ====
import proofs.«415577_j83279415869695_3_alg».proof.Proof.KI.Data2
import proofs.«415577_j83279415869695_3_alg».proof.Proof.KI.PayX
import proofs.«415577_j83279415869695_3_alg».proof.Proof.KI.PayYZ
import Idealize.ShloMosaic.Lib.Pipeline.Value

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Frm Cert.KernelIdeal.Pay Cert.Spec Cert.Spec.Tile

variable {S : Shape} {e : EltTy} {off : Fin S.rank → ℕ}

-- A rectangle as large as the buffer starts at zero.
theorem off_zero (inb : ∀ a, off a + S.size a ≤ S.size a) : off = fun _ => 0 :=
  funext fun a => by have := inb a; omega

variable (inb : ∀ a, off a + S.size a ≤ S.size a)

-- The last store covers the buffer, so the buffer reads as what it stored.
theorem read_store (v : View sig .tc .vmem S e) (w : S.Idx → Elt Ideal e) (L : List (View.Piece (Elt Ideal) S e)) :
    readBack v (⟨Rect.unit off S.size inb, w⟩ :: L) = w :=
  (View.read_writes_eq_canon v _ _ fun y => ⟨_, .head _, View.mem_set_unit_zero (off_zero inb) inb y⟩).trans
    (View.canon_cons_unit_zero (off_zero inb) inb w L)

-- A load of a whole buffer reads what it holds,
theorem load {sp : Space} (M : Memref sig .tc sp S e) (h : M.IsWhole) (X : S.Idx → Elt Ideal e) :
    View.readAt (Elt Ideal) M.view (Rect.unit off S.size inb).toLoadRect (h.unread X) = X := by
  rw [View.readAt_eq_ld, h.read_unread, View.ld_unit_zero (off_zero inb)]

-- also when the buffer is named by its reference,
theorem load_whole (b : Ref sig .tc) {off : Fin b.ty.shape.rank → ℕ} (inb : ∀ a, off a + b.ty.shape.size a ≤ b.ty.shape.size a)
    (X : b.ty.shape.Idx → Elt Ideal b.ty.elt) :
    View.readAt (Elt Ideal) (View.whole b) (Rect.unit off b.ty.shape.size inb).toLoadRect ((Memref.isWhole_whole b).unread X) = X :=
  load inb (Memref.whole b) _ X

-- and after a store of the whole buffer, what was stored.
theorem reload (v : View sig .tc .vmem S e) (w : S.Idx → Elt Ideal e) :
    v.readCov [⟨Rect.unit off S.size inb, w⟩] (Rect.unit off S.size inb).toLoadRect = w :=
  View.readCov_unit_zero v (off_zero inb) inb w

theorem bit_facts : ∀ v : BitVec 1,
    (Scalar.cmpi .ne (Scalar.extui v : BitVec 32) 0#32 = 1#1 ↔ v = 1#1) ∧ (v = 0#1 ∨ v = 1#1) := by decide

-- The flag that selects the seam is clear away from a batch item's fifth tile,
theorem flag_not_last (i : grid0.Coords) (h : ¬condLast i) :
    Scalar.cmpi .eq (BitVec.ofNat 32 (i 1).val) 4#32 = (if false then 1#1 else 0#1 : BitVec 1) :=
  (bit_facts _).2.resolve_right fun h1 => h ((bit_facts _).1.mpr h1)

-- and set at it.
theorem flag_last (i : grid0.Coords) (h : condLast i) :
    Scalar.cmpi .eq (BitVec.ofNat 32 (i 1).val) 4#32 = (if true then 1#1 else 0#1 : BitVec 1) :=
  (bit_facts _).1.mp h

-- Each running sum of `H` is that of `p` plus the term of the tile `B C` with next slices `N M`.
structure Adds (last : Bool) (B C : Blk) (N M : Pln) (p H : Held Ideal) : Prop where
  a0 : H.a0 = fun _ => p.a0 (ix2 0 0) + xw last B C N M
  a1 : H.a1 = fun _ => p.a1 (ix2 0 0) + xh last B C N M
  a2 : H.a2 = fun _ => p.a2 (ix2 0 0) + yw B C
  a3 : H.a3 = fun _ => p.a3 (ix2 0 0) + zh B C
  b0 : H.b0 = fun j => p.b0 j + sq (dH B) (j 0) (j 1)
  b1 : H.b1 = fun j => p.b1 j + sq (dH C) (j 0) (j 1)
  b2 : H.b2 = fun j => p.b2 j + dot (dH B) (dH C) (j 0) (j 1)
  b3 : H.b3 = fun j => p.b3 j + sq (dW B) (j 0) (j 1)
  b4 : H.b4 = fun j => p.b4 j + sq (dW C) (j 0) (j 1)
  b5 : H.b5 = fun j => p.b5 j + dot (dW B) (dW C) (j 0) (j 1)

-- The two scalars along depth come from the completed sums, and the output row lists the six scalars.
structure Fins (H : Held Ideal) : Prop where
  a4 : H.a4 = fun _ => fin (fun h w => H.b2 (ix2 h w)) (fun h w => H.b0 (ix2 h w)) fun h w => H.b1 (ix2 h w)
  a5 : H.a5 = fun _ => fin (fun h w => H.b5 (ix2 h w)) (fun h w => H.b3 (ix2 h w)) fun h w => H.b4 (ix2 h w)
  out (j : Fin 6) : H.out (ix3 (0 : Fin 1) (0 : Fin 1) j) = (![H.a0, H.a1, H.a2, H.a3, H.a4, H.a5] j) (ix2 (0 : Fin 1) (0 : Fin 1))

-- What a batch item's first tile stores into each buffer before it adds its term.
def resets : Held Ideal :=
  ⟨fun _ => 0, k0_pay7 (F := Ideal), k0_pay8 (F := Ideal), k0_pay9 (F := Ideal), k0_pay10 (F := Ideal), k0_pay11 (F := Ideal),
    k0_pay12 (F := Ideal), k0_pay13 (F := Ideal), k0_pay17 (k0_pay14 (F := Ideal)), k0_pay18 (F := Ideal), k0_pay19 (F := Ideal),
    k0_pay20 (F := Ideal), k0_pay21 (F := Ideal)⟩

variable (m : (ℓ : Loc nD τ sig) → Buf (Elt Ideal) ℓ) (c : Dev nD) (t : Fin cfg0.N)

-- Every buffer is reset, then loaded back, the tile's term added, and stored again.
theorem first_adds (h0 : t.val % 5 = 0) :
    Adds false (toBlk (iblk m c 0 t)) (toBlk (iblk m c 1 t)) (toPln (iblk m c 2 t)) (toPln (iblk m c 3 t)) resets (stepFirst m c t h0) := by
  have hf := flag_not_last _ fun h => by have := (hcondLast t).mp h; omega
  unfold stepFirst runFirstAt kernelRunFirst
  dsimp only
  constructor <;> sl_unfold_words <;> dsimp only <;> rw [read_store, reload] <;> repeat rw [load]
  exacts [stored_xw _ _ hf .., stored_xh _ _ hf .., stored_yw .., stored_zh .., stored_f2y .., stored_t2y ..,
    stored_doty .., stored_f2z .., stored_t2z .., stored_dotz ..]

-- Neither branch is taken: each of the ten buffers is loaded, the tile's term added, and stored once.
theorem mid_adds (h0 : ¬t.val % 5 = 0) (h4 : ¬t.val % 5 = 4) (p : Held Ideal) :
    Adds false (toBlk (iblk m c 0 t)) (toBlk (iblk m c 1 t)) (toPln (iblk m c 2 t)) (toPln (iblk m c 3 t)) p (stepMid m c t h0 h4 p) := by
  have hf := flag_not_last _ fun h => h4 ((hcondLast t).mp h)
  unfold stepMid runMidAt kernelRunMid
  dsimp only
  constructor <;> sl_unfold_words <;> dsimp only <;> rw [read_store] <;> (repeat rw [load]) <;> erw [load_whole]
  exacts [stored_xw _ _ hf .., stored_xh _ _ hf .., stored_yw .., stored_zh .., stored_f2y .., stored_t2y ..,
    stored_doty .., stored_f2z .., stored_t2z .., stored_dotz ..]

-- The ten buffers are stored once as at any later tile; the finishing stores load back what the point has just stored.
theorem last_adds (h0 : ¬t.val % 5 = 0) (h4 : t.val % 5 = 4) (p : Held Ideal) :
    Adds true (toBlk (iblk m c 0 t)) (toBlk (iblk m c 1 t)) (toPln (iblk m c 2 t)) (toPln (iblk m c 3 t)) p (stepLast m c t h0 h4 p) ∧
      Fins (stepLast m c t h0 h4 p) := by
  have hf := flag_last _ ((hcondLast t).mpr h4)
  unfold stepLast runLastAt kernelRunLast
  dsimp only
  constructor
  · constructor <;> sl_unfold_words <;> dsimp only <;> rw [read_store] <;> (repeat rw [load]) <;> erw [load_whole]
    exacts [stored_xw _ _ hf .., stored_xh _ _ hf .., stored_yw .., stored_zh .., stored_f2y .., stored_t2y ..,
    stored_doty .., stored_f2z .., stored_t2z .., stored_dotz ..]
  · constructor <;> sl_unfold_words <;> dsimp only <;> (repeat rw [read_store]) <;> repeat rw [reload]
    exacts [stored_yd .., stored_zd .., fun j => stored_out ..]

end Cert.KernelIdeal.Val

end
-- ==== Proof.TileSum.lean ====
import proofs.«415577_j83279415869695_3_alg».proof.Proof.TileSpec
import Mathlib.Algebra.BigOperators.Fin
import Mathlib.Data.Fintype.BigOperators
import Mathlib.Logic.Equiv.Fin.Basic

noncomputable section

namespace Cert.Spec.Tile

open Cert.Spec

theorem sum_depth {M : Type} [AddCommMonoid M] (f : Fin 160 → M) :
    ∑ d : Fin 160, f d = ∑ dt : Fin 5, ∑ r : Fin 32, f ⟨32 * dt.val + r.val, by omega⟩ := by
  calc ∑ d : Fin 160, f d
      = ∑ p : Fin 5 × Fin 32, f ⟨32 * p.1.val + p.2.val, by omega⟩ := by
        refine (Fintype.sum_equiv (finProdFinEquiv (m := 5) (n := 32)) _ _ ?_).symm
        rintro ⟨dt, r⟩
        congr 1
        apply Fin.ext
        simp only [finProdFinEquiv_apply_val]
        omega
    _ = ∑ dt : Fin 5, ∑ r : Fin 32, f ⟨32 * dt.val + r.val, by omega⟩ :=
        Fintype.sum_prod_type' (fun (dt : Fin 5) (r : Fin 32) => f ⟨32 * dt.val + r.val, by omega⟩)

theorem dH_blk (X : Field) (b : Fin 2) (dt : Fin 5) : dH (blk X b dt) = blk (gradH X) b dt := by
  rfl

theorem dW_blk (X : Field) (b : Fin 2) (dt : Fin 5) : dW (blk X b dt) = blk (gradW X) b dt := by
  rfl

theorem gradD_main (X : Field) (b : Fin 2) (dt : Fin 5) (r : Fin 31) (h w : Fin 160) :
    gradD X b ⟨32 * dt.val + r.castSucc.val, by have := r.isLt; simp only [Fin.coe_castSucc]; omega⟩ h w
      = dMain (blk X b dt) r h w := by
  have hlt : 32 * dt.val + r.castSucc.val + 1 < 160 := by
    have := r.isLt; simp only [Fin.coe_castSucc]; omega
  simp only [gradD, dMain, blk, dif_pos hlt]
  rfl

theorem gradD_seam (X : Field) (b : Fin 2) (dt : Fin 5) (h w : Fin 160) :
    gradD X b ⟨32 * dt.val + (Fin.last 31).val, by simp only [Fin.val_last]; omega⟩ h w
      = dSeam (decide (dt.val = 4)) (blk X b dt) (nxt X b dt) h w := by
  by_cases h4 : dt.val = 4
  · have hge : ¬ (32 * dt.val + (Fin.last 31).val + 1 < 160) := by
      simp only [Fin.val_last]; omega
    simp only [gradD, dif_neg hge]
    simp only [dSeam, h4, decide_true, if_true]
  · have hlt : 32 * dt.val + (Fin.last 31).val + 1 < 160 := by
      simp only [Fin.val_last]; omega
    have hmin : min (32 * (dt.val + 1)) 159 = 32 * dt.val + (Fin.last 31).val + 1 := by
      simp only [Fin.val_last]; omega
    simp only [gradD, dSeam, blk, nxt, dif_pos hlt, h4, decide_false, Bool.false_eq_true, if_false, hmin]
    rfl

theorem sum_xw (X Y : Field) (b : Fin 2) :
    ∑ dt : Fin 5, xw (decide (dt.val = 4)) (blk X b dt) (blk Y b dt) (nxt X b dt) (nxt Y b dt)
      = ∑ d : Fin 160, ∑ h, cosK (fun w => gradD X b d h w) (fun w => gradD Y b d h w) := by
  rw [sum_depth]
  refine Finset.sum_congr rfl (fun dt _ => ?_)
  rw [Fin.sum_univ_castSucc]
  simp only [xw, gradD_main, gradD_seam]

theorem sum_xh (X Y : Field) (b : Fin 2) :
    ∑ dt : Fin 5, xh (decide (dt.val = 4)) (blk X b dt) (blk Y b dt) (nxt X b dt) (nxt Y b dt)
      = ∑ d : Fin 160, ∑ w, cosK (fun h => gradD X b d h w) (fun h => gradD Y b d h w) := by
  rw [sum_depth]
  refine Finset.sum_congr rfl (fun dt _ => ?_)
  rw [Fin.sum_univ_castSucc]
  simp only [xh, gradD_main, gradD_seam]

theorem sum_yw (X Y : Field) (b : Fin 2) :
    ∑ dt : Fin 5, yw (blk X b dt) (blk Y b dt)
      = ∑ d : Fin 160, ∑ h, cosK (fun w => gradH X b d h w) (fun w => gradH Y b d h w) := by
  rw [sum_depth]
  refine Finset.sum_congr rfl (fun dt _ => ?_)
  rw [yw, dH_blk, dH_blk]
  rfl

theorem sum_zh (X Y : Field) (b : Fin 2) :
    ∑ dt : Fin 5, zh (blk X b dt) (blk Y b dt)
      = ∑ d : Fin 160, ∑ w, cosK (fun h => gradW X b d h w) (fun h => gradW Y b d h w) := by
  rw [sum_depth]
  refine Finset.sum_congr rfl (fun dt _ => ?_)
  rw [zh, dW_blk, dW_blk]
  rfl

theorem sum_sq (G : Field) (b : Fin 2) (h w : Fin 160) :
    ∑ dt : Fin 5, sq (blk G b dt) h w = ∑ d : Fin 160, G b d h w * G b d h w := by
  rw [sum_depth]
  rfl

theorem sum_dot (G G' : Field) (b : Fin 2) (h w : Fin 160) :
    ∑ dt : Fin 5, dot (blk G b dt) (blk G' b dt) h w = ∑ d : Fin 160, G b d h w * G' b d h w := by
  rw [sum_depth]
  rfl

theorem sum_sq_dH (X : Field) (b : Fin 2) (h w : Fin 160) :
    ∑ dt : Fin 5, sq (dH (blk X b dt)) h w = ∑ d : Fin 160, gradH X b d h w * gradH X b d h w := by
  simp only [dH_blk]
  exact sum_sq (gradH X) b h w

theorem sum_dot_dH (X Y : Field) (b : Fin 2) (h w : Fin 160) :
    ∑ dt : Fin 5, dot (dH (blk X b dt)) (dH (blk Y b dt)) h w
      = ∑ d : Fin 160, gradH X b d h w * gradH Y b d h w := by
  simp only [dH_blk]
  exact sum_dot (gradH X) (gradH Y) b h w

theorem sum_sq_dW (X : Field) (b : Fin 2) (h w : Fin 160) :
    ∑ dt : Fin 5, sq (dW (blk X b dt)) h w = ∑ d : Fin 160, gradW X b d h w * gradW X b d h w := by
  simp only [dW_blk]
  exact sum_sq (gradW X) b h w

theorem sum_dot_dW (X Y : Field) (b : Fin 2) (h w : Fin 160) :
    ∑ dt : Fin 5, dot (dW (blk X b dt)) (dW (blk Y b dt)) h w
      = ∑ d : Fin 160, gradW X b d h w * gradW Y b d h w := by
  simp only [dW_blk]
  exact sum_dot (gradW X) (gradW Y) b h w

theorem fin_eq (F T : Field) (b : Fin 2) :
    fin (fun h w => ∑ d, F b d h w * T b d h w) (fun h w => ∑ d, F b d h w * F b d h w)
        (fun h w => ∑ d, T b d h w * T b d h w)
      = ∑ h, ∑ w, cosK (fun d => F b d h w) (fun d => T b d h w) := by
  rfl

theorem fold5 (g : Fin 5 → EReal) :
    ((((0 + g 0) + g 1) + g 2) + g 3) + g 4 = ∑ dt, g dt := by
  rw [Fin.sum_univ_five, zero_add]

theorem fold5_pln (g : Fin 5 → Pln) (h w : Fin 160) :
    ((((0 + g 0 h w) + g 1 h w) + g 2 h w) + g 3 h w) + g 4 h w = ∑ dt, g dt h w := by
  rw [Fin.sum_univ_five, zero_add]

end Cert.Spec.Tile

end
-- ==== Proof.KI.Blocks.lean ====
import proofs.«415577_j83279415869695_3_alg».proof.Proof.KI.Base
import proofs.«415577_j83279415869695_3_alg».proof.Proof.KI.PayBase
import proofs.«415577_j83279415869695_3_alg».proof.Proof.TileSum
import Idealize.ShloMosaic.Lib.Pipeline.Value

noncomputable section

namespace Cert.KernelIdeal.Val

open Idealize.ShloMosaic Idealize.ShloMosaic.TcCoe Idealize.SL.Sem
open Cert.KernelIdeal Cert.KernelIdeal.Gen Cert.KernelIdeal.Frm Cert.KernelIdeal.Pay Cert.Spec Cert.Spec.Tile

variable (m : (ℓ : Loc nD τ sig) → Buf (Elt Ideal) ℓ)

abbrev X (c : Dev nD) : Field := fld (m ((c : Thread nD τ).loc main_arg0))

abbrev Y (c : Dev nD) : Field := fld (m ((c : Thread nD τ).loc main_arg1))

def tl (k : ℕ) : Fin 5 := ⟨k % 5, Nat.mod_lt _ (by decide)⟩

def bOf (t : Fin cfg0.N) : Fin 2 := ⟨t.val / 5, by have := t.isLt; have h : cfg0.N = 10 := N_0; omega⟩

def dtOf (t : Fin cfg0.N) : Fin 5 := tl t.val

theorem idx_cur0 : ∀ t : Fin cfg0.N, win0_0.index t 0 = t.val / 5 ∧ win0_0.index t 1 = 0 ∧ win0_0.index t 2 = t.val % 5
    ∧ win0_0.index t 3 = 0 ∧ win0_0.index t 4 = 0 :=
  (by decide +kernel : ∀ t : Fin grid0.N, win0_0.index t 0 = t.val / 5 ∧ win0_0.index t 1 = 0 ∧ win0_0.index t 2 = t.val % 5
    ∧ win0_0.index t 3 = 0 ∧ win0_0.index t 4 = 0)
theorem idx_cur1 : ∀ t : Fin cfg0.N, win0_1.index t 0 = t.val / 5 ∧ win0_1.index t 1 = 0 ∧ win0_1.index t 2 = t.val % 5
    ∧ win0_1.index t 3 = 0 ∧ win0_1.index t 4 = 0 :=
  (by decide +kernel : ∀ t : Fin grid0.N, win0_1.index t 0 = t.val / 5 ∧ win0_1.index t 1 = 0 ∧ win0_1.index t 2 = t.val % 5
    ∧ win0_1.index t 3 = 0 ∧ win0_1.index t 4 = 0)

theorem idx_nxt2 : ∀ t : Fin cfg0.N, win0_2.index t 0 = t.val / 5 ∧ win0_2.index t 1 = 0
    ∧ win0_2.index t 2 = min (32 * (t.val % 5 + 1)) 159 ∧ win0_2.index t 3 = 0 ∧ win0_2.index t 4 = 0 :=
  (by decide +kernel : ∀ t : Fin grid0.N, win0_2.index t 0 = t.val / 5 ∧ win0_2.index t 1 = 0
    ∧ win0_2.index t 2 = min (32 * (t.val % 5 + 1)) 159 ∧ win0_2.index t 3 = 0 ∧ win0_2.index t 4 = 0)
theorem idx_nxt3 : ∀ t : Fin cfg0.N, win0_3.index t 0 = t.val / 5 ∧ win0_3.index t 1 = 0
    ∧ win0_3.index t 2 = min (32 * (t.val % 5 + 1)) 159 ∧ win0_3.index t 3 = 0 ∧ win0_3.index t 4 = 0 :=
  (by decide +kernel : ∀ t : Fin grid0.N, win0_3.index t 0 = t.val / 5 ∧ win0_3.index t 1 = 0
    ∧ win0_3.index t 2 = min (32 * (t.val % 5 + 1)) 159 ∧ win0_3.index t 3 = 0 ∧ win0_3.index t 4 = 0)

theorem blk_cur0 (c : Dev nD) (t : Fin cfg0.N) : toBlk (iblk m c 0 t) = blk (X m c) (bOf t) (dtOf t) := by
  obtain ⟨i0, i1, i2, i3, i4⟩ := idx_cur0 t
  funext r h w
  unfold toBlk iblk
  rw [View.read_apply]
  show V m c main_arg0 _ = m ((c : Thread nD τ).loc main_arg0) (ValueIdx.ix5 (bOf t) (0 : Fin 1) ⟨32 * (dtOf t).val + r.val, by have := (dtOf t).isLt; have := r.isLt; omega⟩ h w)
  refine congrArg (m ((c : Thread nD τ).loc main_arg0)) ?_
  funext a
  apply Fin.ext
  match a with
  | ⟨0, _⟩ => show win0_0.index t 0 * 1 + 1 * 0 = t.val / 5; omega
  | ⟨1, _⟩ => show win0_0.index t 1 * 1 + 1 * 0 = 0; omega
  | ⟨2, _⟩ => show win0_0.index t 2 * 32 + 1 * r.val = 32 * (t.val % 5) + r.val; omega
  | ⟨3, _⟩ => show win0_0.index t 3 * 160 + 1 * h.val = h.val; omega
  | ⟨4, _⟩ => show win0_0.index t 4 * 160 + 1 * w.val = w.val; omega

theorem blk_cur1 (c : Dev nD) (t : Fin cfg0.N) : toBlk (iblk m c 1 t) = blk (Y m c) (bOf t) (dtOf t) := by
  obtain ⟨i0, i1, i2, i3, i4⟩ := idx_cur1 t
  funext r h w
  unfold toBlk iblk
  rw [View.read_apply]
  show V m c main_arg1 _ = m ((c : Thread nD τ).loc main_arg1) (ValueIdx.ix5 (bOf t) (0 : Fin 1) ⟨32 * (dtOf t).val + r.val, by have := (dtOf t).isLt; have := r.isLt; omega⟩ h w)
  refine congrArg (m ((c : Thread nD τ).loc main_arg1)) ?_
  funext a
  apply Fin.ext
  match a with
  | ⟨0, _⟩ => show win0_1.index t 0 * 1 + 1 * 0 = t.val / 5; omega
  | ⟨1, _⟩ => show win0_1.index t 1 * 1 + 1 * 0 = 0; omega
  | ⟨2, _⟩ => show win0_1.index t 2 * 32 + 1 * r.val = 32 * (t.val % 5) + r.val; omega
  | ⟨3, _⟩ => show win0_1.index t 3 * 160 + 1 * h.val = h.val; omega
  | ⟨4, _⟩ => show win0_1.index t 4 * 160 + 1 * w.val = w.val; omega

theorem pln_nxt2 (c : Dev nD) (t : Fin cfg0.N) : toPln (iblk m c 2 t) = nxt (X m c) (bOf t) (dtOf t) := by
  obtain ⟨i0, i1, i2, i3, i4⟩ := idx_nxt2 t
  funext h w
  unfold toPln iblk
  rw [View.read_apply]
  show V m c main_arg0 _ = m ((c : Thread nD τ).loc main_arg0) (ValueIdx.ix5 (bOf t) (0 : Fin 1) ⟨min (32 * ((dtOf t).val + 1)) 159, by omega⟩ h w)
  refine congrArg (m ((c : Thread nD τ).loc main_arg0)) ?_
  funext a
  apply Fin.ext
  match a with
  | ⟨0, _⟩ => show win0_2.index t 0 * 1 + 1 * 0 = t.val / 5; omega
  | ⟨1, _⟩ => show win0_2.index t 1 * 1 + 1 * 0 = 0; omega
  | ⟨2, _⟩ => show win0_2.index t 2 * 1 + 1 * 0 = min (32 * (t.val % 5 + 1)) 159; omega
  | ⟨3, _⟩ => show win0_2.index t 3 * 160 + 1 * h.val = h.val; omega
  | ⟨4, _⟩ => show win0_2.index t 4 * 160 + 1 * w.val = w.val; omega

theorem pln_nxt3 (c : Dev nD) (t : Fin cfg0.N) : toPln (iblk m c 3 t) = nxt (Y m c) (bOf t) (dtOf t) := by
  obtain ⟨i0, i1, i2, i3, i4⟩ := idx_nxt3 t
  funext h w
  unfold toPln iblk
  rw [View.read_apply]
  show V m c main_arg1 _ = m ((c : Thread nD τ).loc main_arg1) (ValueIdx.ix5 (bOf t) (0 : Fin 1) ⟨min (32 * ((dtOf t).val + 1)) 159, by omega⟩ h w)
  refine congrArg (m ((c : Thread nD τ).loc main_arg1)) ?_
  funext a
  apply Fin.ext
  match a with
  | ⟨0, _⟩ => show win0_3.index t 0 * 1 + 1 * 0 = t.val / 5; omega
  | ⟨1, _⟩ => show win0_3.index t 1 * 1 + 1 * 0 = 0; omega
  | ⟨2, _⟩ => show win0_3.index t 2 * 1 + 1 * 0 = min (32 * (t.val % 5 + 1)) 159; omega
  | ⟨3, _⟩ => show win0_3.index t 3 * 160 + 1 * h.val = h.val; omega
  | ⟨4, _⟩ => show win0_3.index t 4 * 160 + 1 * w.val = w.val; omega

def acc (g : Fin 5 → EReal) : ℕ → EReal
  | 0 => 0 + g 0
  | n + 1 => acc g n + g (tl (n + 1))

theorem acc_zero (g : Fin 5 → EReal) : acc g 0 = 0 + g 0 := rfl
theorem acc_succ (g : Fin 5 → EReal) (n : ℕ) : acc g (n + 1) = acc g n + g (tl (n + 1)) := rfl

theorem acc_four (g : Fin 5 → EReal) : acc g 4 = ∑ dt, g dt := by
  rw [← fold5 g]
  rfl

variable (P Q : Field)

def txw (b : Fin 2) (k : Fin 5) : EReal := Tile.xw (decide (k.val = 4)) (blk P b k) (blk Q b k) (nxt P b k) (nxt Q b k)

def txh (b : Fin 2) (k : Fin 5) : EReal := Tile.xh (decide (k.val = 4)) (blk P b k) (blk Q b k) (nxt P b k) (nxt Q b k)

def tyw (b : Fin 2) (k : Fin 5) : EReal := Tile.yw (blk P b k) (blk Q b k)

def tzh (b : Fin 2) (k : Fin 5) : EReal := Tile.zh (blk P b k) (blk Q b k)

def entry (b : Fin 2) (j : Fin 6) : EReal :=
  ![∑ d, ∑ h, cosK (fun w => gradD P b d h w) (fun w => gradD Q b d h w),
    ∑ d, ∑ w, cosK (fun h => gradD P b d h w) (fun h => gradD Q b d h w),
    ∑ d, ∑ h, cosK (fun w => gradH P b d h w) (fun w => gradH Q b d h w),
    ∑ d, ∑ w, cosK (fun h => gradW P b d h w) (fun h => gradW Q b d h w),
    ∑ h, ∑ w, cosK (fun d => gradH P b d h w) (fun d => gradH Q b d h w),
    ∑ h, ∑ w, cosK (fun d => gradW P b d h w) (fun d => gradW Q b d h w)] j

theorem acc_xw (b : Fin 2) : acc (txw P Q b) 4 = entry P Q b 0 := by
  rw [acc_four]; exact sum_xw P Q b
theorem acc_xh (b : Fin 2) : acc (txh P Q b) 4 = entry P Q b 1 := by
  rw [acc_four]; exact sum_xh P Q b
theorem acc_yw (b : Fin 2) : acc (tyw P Q b) 4 = entry P Q b 2 := by
  rw [acc_four]; exact sum_yw P Q b
theorem acc_zh (b : Fin 2) : acc (tzh P Q b) 4 = entry P Q b 3 := by
  rw [acc_four]; exact sum_zh P Q b

theorem fin_yd (b : Fin 2) :
    Tile.fin (fun h w => acc (fun k => Tile.dot (Tile.dH (blk P b k)) (Tile.dH (blk Q b k)) h w) 4)
        (fun h w => acc (fun k => Tile.sq (Tile.dH (blk P b k)) h w) 4)
        (fun h w => acc (fun k => Tile.sq (Tile.dH (blk Q b k)) h w) 4) = entry P Q b 4 := by
  simp only [acc_four, sum_dot_dH, sum_sq_dH]
  exact fin_eq (gradH P) (gradH Q) b

theorem fin_zd (b : Fin 2) :
    Tile.fin (fun h w => acc (fun k => Tile.dot (Tile.dW (blk P b k)) (Tile.dW (blk Q b k)) h w) 4)
        (fun h w => acc (fun k => Tile.sq (Tile.dW (blk P b k)) h w) 4)
        (fun h w => acc (fun k => Tile.sq (Tile.dW (blk Q b k)) h w) 4) = entry P Q b 5 := by
  simp only [acc_four, sum_dot_dW, sum_sq_dW]
  exact fin_eq (gradW P) (gradW Q) b

end Cert.KernelIdeal.Val

end
-- ==== Proof.KI.ArrAt.lean ====
import proofs.«415577_j83279415869695_3_alg».proof.Proof.Gen.KernelIdeal.Launch
import proofs.«415577_j83279415869695_3_alg».proof.Proof.Gen.KernelIdeal.Points
import Idealize.ShloMosaic.Lib.Pipeline.Value
import Idealize.ShloMosaic.Lib.ValueIdx

noncomputable section

namespace Cert.KernelIdeal.Val

open Idealize.ShloMosaic Idealize.ShloMosaic.TcCoe
open Idealize.SL Idealize.SL.RA Idealize.SL.Sem
open Idealize.ShloMosaic.Pipeline (Dat Cfg Window)
open Cert.KernelIdeal Cert.KernelIdeal.Gen

variable {F : FTy → Type} [FloatOps F] [Named F]

theorem idx_out : ∀ t : Fin cfg0.N, win0_4.index t (0 : Fin 3) = t.val / 5 ∧ win0_4.index t (1 : Fin 3) = 0
    ∧ win0_4.index t (2 : Fin 3) = 0 :=
  (by decide +kernel : ∀ t : Fin grid0.N, win0_4.index t (0 : Fin 3) = t.val / 5 ∧ win0_4.index t (1 : Fin 3) = 0
    ∧ win0_4.index t (2 : Fin 3) = 0)

theorem mem_blk_out (t : Fin cfg0.N) (i : S2x1x6.Idx) :
    i ∈ ((cfg0.win 4).blk t).view.set ↔ ∀ a : Fin 3, win0_4.index t a * S1x1x6.size a ≤ (i a).val
      ∧ (i a).val < win0_4.index t a * S1x1x6.size a + S1x1x6.size a := by
  show i ∈ ((View.whole main_v0).slice (win0_4.rect t)).set ↔ _
  rw [View.set_slice_whole, Rect.mem_set_unit]
  exact Iff.rfl

theorem disj_out (t t' : Fin cfg0.N) (hf : (cfg0.win 4).flush t = true) (hf' : (cfg0.win 4).flush t' = true)
    (hne : t ≠ t') : Disjoint ((cfg0.win 4).blk t).view.set ((cfg0.win 4).blk t').view.set := by
  rw [Finset.disjoint_left]
  intro i hi hi'
  rw [mem_blk_out] at hi hi'
  have h0 : win0_4.index t (0 : Fin 3) * 1 ≤ (i 0).val ∧ (i 0).val < win0_4.index t (0 : Fin 3) * 1 + 1 := hi 0
  have h0' : win0_4.index t' (0 : Fin 3) * 1 ≤ (i 0).val ∧ (i 0).val < win0_4.index t' (0 : Fin 3) * 1 + 1 := hi' 0
  obtain ⟨e, -, -⟩ := idx_out t
  obtain ⟨e', -, -⟩ := idx_out t'
  have q := (flush0_4 t).1 hf
  have q' := (flush0_4 t').1 hf'
  exact hne (Fin.ext (by omega))

theorem emb_out (t : Fin cfg0.N) (b : Fin 2) (hb : t.val / 5 = b.val) (j : Fin 6) :
    ((cfg0.win 4).blk t).view.emb (ValueIdx.ix3 (0 : Fin 1) (0 : Fin 1) j) = ValueIdx.ix3 b (0 : Fin 1) j := by
  obtain ⟨e0, e1, e2⟩ := idx_out t
  funext a; apply Fin.ext
  match a with
  | ⟨0, _⟩ => show win0_4.index t (0 : Fin 3) * 1 + 1 * 0 = b.val; omega
  | ⟨1, _⟩ => show win0_4.index t (1 : Fin 3) * 1 + 1 * 0 = 0; omega
  | ⟨2, _⟩ => show win0_4.index t (2 : Fin 3) * 6 + 1 * j.val = j.val; omega

theorem arrAt_out {c : Dev nD} (dat : Pipeline.Dat τ (Elt F) Unit ℕ (UR sig nD τ) ℕ cfg0 c) (b : Fin 2) (j : Fin 6) :
    dat.arrAt 4 cfg0.N (ValueIdx.ix3 b (0 : Fin 1) j)
      = dat.after 4 ⟨5 * b.val + 4, by have h : cfg0.N = 10 := N_0; omega⟩ (ValueIdx.ix3 (0 : Fin 1) (0 : Fin 1) j) := by
  have hN : cfg0.N = 10 := N_0
  have hf : (cfg0.win 4).flush (⟨5 * b.val + 4, by omega⟩ : Fin cfg0.N) = true :=
    (flush0_4 _).2 (show (5 * b.val + 4) % 5 = 4 by omega)
  have key := Dat.arrAt_emb_eq_flushed dat 4 disj_out ⟨5 * b.val + 4, by omega⟩ hf
    (ValueIdx.ix3 (0 : Fin 1) (0 : Fin 1) j)
  rw [emb_out _ b (show (5 * b.val + 4) / 5 = b.val by omega) j] at key
  exact key.trans rfl

end Cert.KernelIdeal.Val

end
-- ==== Proof.KI.Value.lean ====
import proofs.«415577_j83279415869695_3_alg».proof.Proof.KI.Pieces
import proofs.«415577_j83279415869695_3_alg».proof.Proof.KI.Blocks
import proofs.«415577_j83279415869695_3_alg».proof.Proof.KI.ArrAt
import proofs.«415577_j83279415869695_3_alg».proof.Proof.KI.TailFn

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm Cert.KernelIdeal.Pay Cert.Spec Cert.Spec.Tile

variable (m : (ℓ : Loc nD τ sig) → Buf (Elt Ideal) ℓ) (c : Dev nD)

theorem acc_first (g : Fin 5 → EReal) (n : ℕ) (k : Fin 5) (hk : k.val = n % 5) (h : n % 5 = 0) :
    acc g (n % 5) = 0 + g k := by
  have e : k = 0 := Fin.ext (hk.trans h)
  rw [h, e]
  rfl

theorem acc_next (g : Fin 5 → EReal) (n : ℕ) (k : Fin 5) (hk : k.val = (n + 1) % 5) (h : ¬(n + 1) % 5 = 0) :
    acc g ((n + 1) % 5) = acc g (n % 5) + g k := by
  have e : (n + 1) % 5 = n % 5 + 1 := by omega
  have ek : k = tl (n % 5 + 1) := Fin.ext (by rw [hk, e]; show n % 5 + 1 = (n % 5 + 1) % 5; omega)
  rw [e, ek]
  rfl

-- The ten running sums of batch item `b`, the tiles' terms folded by `A`.
structure Sums (b : Fin 2) (A : (Fin 5 → EReal) → EReal) (H : Held Ideal) : Prop where
  a0 : H.a0 = fun _ => A (txw (X m c) (Y m c) b)
  a1 : H.a1 = fun _ => A (txh (X m c) (Y m c) b)
  a2 : H.a2 = fun _ => A (tyw (X m c) (Y m c) b)
  a3 : H.a3 = fun _ => A (tzh (X m c) (Y m c) b)
  b0 : H.b0 = fun j => A fun q => Tile.sq (Tile.dH (blk (X m c) b q)) (j 0) (j 1)
  b1 : H.b1 = fun j => A fun q => Tile.sq (Tile.dH (blk (Y m c) b q)) (j 0) (j 1)
  b2 : H.b2 = fun j => A fun q => Tile.dot (Tile.dH (blk (X m c) b q)) (Tile.dH (blk (Y m c) b q)) (j 0) (j 1)
  b3 : H.b3 = fun j => A fun q => Tile.sq (Tile.dW (blk (X m c) b q)) (j 0) (j 1)
  b4 : H.b4 = fun j => A fun q => Tile.sq (Tile.dW (blk (Y m c) b q)) (j 0) (j 1)
  b5 : H.b5 = fun j => A fun q => Tile.dot (Tile.dW (blk (X m c) b q)) (Tile.dW (blk (Y m c) b q)) (j 0) (j 1)

-- A point adds its tile's terms: the staged blocks are the tile, and the seam flag is the tile's.
theorem sums_step (t : Fin cfg0.N) (last : Bool) (hl : last = decide (t.val % 5 = 4)) {A A' : (Fin 5 → EReal) → EReal}
    (hA : ∀ g, A' g = A g + g (dtOf t)) {p H : Held Ideal} (ih : Sums m c (bOf t) A p)
    (h : Adds last (toBlk (iblk m c 0 t)) (toBlk (iblk m c 1 t)) (toPln (iblk m c 2 t)) (toPln (iblk m c 3 t)) p H) : Sums m c (bOf t) A' H := by
  subst hl
  rw [blk_cur0, blk_cur1, pln_nxt2, pln_nxt3] at h
  constructor
  · rw [h.a0, ih.a0, hA]; rfl
  · rw [h.a1, ih.a1, hA]; rfl
  · rw [h.a2, ih.a2, hA]; rfl
  · rw [h.a3, ih.a3, hA]; rfl
  · rw [h.b0, ih.b0]; funext j; rw [hA]
  · rw [h.b1, ih.b1]; funext j; rw [hA]
  · rw [h.b2, ih.b2]; funext j; rw [hA]
  · rw [h.b3, ih.b3]; funext j; rw [hA]
  · rw [h.b4, ih.b4]; funext j; rw [hA]
  · rw [h.b5, ih.b5]; funext j; rw [hA]

theorem sums_at (n : ℕ) (hn : n < cfg0.N) : Sums m c (bOf ⟨n, hn⟩) (acc · (n % 5)) (outsAt0 m c n hn) := by
  by_cases h0 : n % 5 = 0
  · rw [outsAt0_first m c ⟨n, hn⟩ h0]
    exact sums_step m c ⟨n, hn⟩ false (decide_eq_false (by show ¬n % 5 = 4; omega)).symm (fun g => acc_first g n _ rfl h0)
      ⟨reset_1x1.1, reset_1x1.2.1, reset_1x1.2.2.1, reset_1x1.2.2.2.1, reset_160.1, reset_160.2.1, reset_160.2.2.1,
        reset_160.2.2.2.1, reset_160.2.2.2.2.1, reset_160.2.2.2.2.2.1⟩ (first_adds m c _ h0)
  · obtain ⟨n, rfl⟩ : ∃ k, n = k + 1 := ⟨n - 1, by omega⟩
    have ih := sums_at n (Nat.lt_of_succ_lt hn)
    rw [show bOf ⟨n, Nat.lt_of_succ_lt hn⟩ = bOf ⟨n + 1, hn⟩ from Fin.ext (by show n / 5 = (n + 1) / 5; omega)] at ih
    by_cases h4 : (n + 1) % 5 = 4
    · rw [outsAt0_last m c ⟨n + 1, hn⟩ h0 h4]
      exact sums_step m c ⟨n + 1, hn⟩ true (decide_eq_true h4).symm (fun g => acc_next g n _ rfl h0) ih
        (last_adds m c _ h0 h4 _).1
    · rw [outsAt0_mid m c ⟨n + 1, hn⟩ h0 h4]
      exact sums_step m c ⟨n + 1, hn⟩ false (decide_eq_false h4).symm (fun g => acc_next g n _ rfl h0) ih
        (mid_adds m c _ h0 h4 _)

theorem out_last (t : Fin cfg0.N) (h4 : t.val % 5 = 4) (j : Fin 6) :
    (outsAt0 m c t.val t.isLt).out (ix3 (0 : Fin 1) (0 : Fin 1) j) = entry (X m c) (Y m c) (bOf t) j := by
  have h0 : ¬t.val % 5 = 0 := by omega
  have S := sums_at m c t.val t.isLt
  rw [h4, outsAt0_last m c t h0 h4] at S
  rw [outsAt0_last m c t h0 h4]
  obtain ⟨s4, s5, so⟩ := (last_adds m c t h0 h4 _).2
  rw [S.b0, S.b1, S.b2] at s4
  rw [S.b3, S.b4, S.b5] at s5
  rw [so]
  match j with
  | ⟨0, _⟩ => exact (congrFun S.a0 _).trans (acc_xw ..)
  | ⟨1, _⟩ => exact (congrFun S.a1 _).trans (acc_xh ..)
  | ⟨2, _⟩ => exact (congrFun S.a2 _).trans (acc_yw ..)
  | ⟨3, _⟩ => exact (congrFun S.a3 _).trans (acc_zh ..)
  | ⟨4, _⟩ => exact (congrFun s4 _).trans (fin_yd ..)
  | ⟨5, _⟩ => exact (congrFun s5 _).trans (fin_zd ..)

theorem out_final : (dats m 0 c).arrAt 4 cfg0.N = fun i => entry (X m c) (Y m c) (i 0) (i 2) := by
  funext i
  have h2 : (i 0).val < 2 := (i 0).isLt
  have hN : cfg0.N = 10 := N_0
  have hlt : 5 * (i 0).val + 4 < cfg0.N := by omega
  have hi : i = ix3 (i 0) (0 : Fin 1) (i 2) := by
    funext a
    match a with
    | ⟨0, _⟩ => rfl
    | ⟨1, _⟩ => exact Subsingleton.elim (α := Fin 1) _ _
    | ⟨2, _⟩ => rfl
  have hb : bOf ⟨5 * (i 0).val + 4, hlt⟩ = i 0 := Fin.ext (by show (5 * (i 0).val + 4) / 5 = (i 0).val; omega)
  calc (dats m 0 c).arrAt 4 cfg0.N i
      = (dats m 0 c).arrAt 4 cfg0.N (ix3 (i 0) (0 : Fin 1) (i 2)) := congrArg ((dats m 0 c).arrAt 4 cfg0.N) hi
    _ = (dats m 0 c).after 4 ⟨5 * (i 0).val + 4, hlt⟩ (ix3 (0 : Fin 1) (0 : Fin 1) (i 2)) := arrAt_out (dats m 0 c) (i 0) (i 2)
    _ = (outsAt0 m c (5 * (i 0).val + 4) hlt).out (ix3 (0 : Fin 1) (0 : Fin 1) (i 2)) := congrFun (after0_4 m c ⟨5 * (i 0).val + 4, hlt⟩) _
    _ = entry (X m c) (Y m c) (bOf ⟨5 * (i 0).val + 4, hlt⟩) (i 2) :=
        out_last m c ⟨5 * (i 0).val + 4, hlt⟩ (by show (5 * (i 0).val + 4) % 5 = 4; omega) (i 2)
    _ = entry (X m c) (Y m c) (i 0) (i 2) := by rw [hb]

theorem kernel_value : tailFn (F := Ideal) ((dats m 0 c).arrAt 4 cfg0.N) = fun _ => lossK (X m c) (Y m c) := by
  rw [tailFn_ideal, out_final]
  rfl

end Cert.KernelIdeal.Val

end
-- ==== Proof.Ref.Value.lean ====
import proofs.«415577_j83279415869695_3_alg».proof.Proof.Ref.Read
import proofs.«415577_j83279415869695_3_alg».proof.Proof.Spec
import Idealize.ShloMosaic.Lib.KernelVsHost
import Idealize.ShloMosaic.Lib.ValueIdx
import Idealize.ShloMosaic.PureOps.Ideal.Laws
import Mathlib.Data.Fintype.BigOperators

noncomputable section

namespace Cert.ReferenceIdeal.RefValue

open Cert.ReferenceIdeal Cert.ReferenceIdeal.Gen Cert.ReferenceIdeal.ReadP Idealize.ShloMosaic Idealize.ShloMosaic.ValueIdx

abbrev Arr : Type := FVec Ideal S2x1x160x160x160 .f32

-- the padding scalar is the integer zero read as a real
theorem padv_zero : (val_main_call0_v0 (F := Ideal)) (Shape.Idx.first h_S_) = 0 := by
  show (((0#32 : BitVec 32).toInt : ℝ) : EReal) = 0
  simp

abbrev fa (F : Spec.Field) (i : S2x1x160x160x160.Idx) : EReal := F (i 0) (i 2) (i 3) (i 4)

-- the second axis has one entry, so four coordinates fix an index
theorem fa_fld (x : Arr) (i : S2x1x160x160x160.Idx) : x i = fa (Spec.fld x) i :=
  congrArg x (funext fun c => by fin_cases c <;> first | rfl | exact @Subsingleton.elim (Fin 1) _ _ _)

def up (a : Fin 5) (i : S2x1x160x160x160.Idx) (h : (i a).val + 1 < S2x1x160x160x160.size a) : S2x1x160x160x160.Idx :=
  fun c => ⟨(i c).val + if c = a then 1 else 0, by
    by_cases hc : c = a
    · rw [if_pos hc, hc]; exact h
    · rw [if_neg hc]; exact (i c).isLt⟩

-- the forward difference along axis `a`, 0 at the last place
theorem fwd_apply {sz o1 o0 lo hi it : Fin 5 → Nat} (a : Fin 5)
    {h1 : S2x1x160x160x160.Slices o1 ⟨5, sz⟩} {h0 : S2x1x160x160x160.Slices o0 ⟨5, sz⟩}
    {hp : (⟨5, sz⟩ : Shape).Pads lo hi it S2x1x160x160x160}
    {v : FVec Ideal S_ .f32} (hv : v (Shape.Idx.first h_S_) = 0)
    (H : ∀ c, lo c = 0 ∧ it c = 0 ∧ o0 c = 0 ∧ o1 c = (if c = a then 1 else 0) ∧ sz c + o1 c = S2x1x160x160x160.size c)
    (x : Arr) (i : S2x1x160x160x160.Idx) :
    pad S2x1x160x160x160 lo hi it (subf (extractStridedSlice ⟨5, sz⟩ o1 x h1) (extractStridedSlice ⟨5, sz⟩ o0 x h0)) v hp h_S_ i
      = if h : (i a).val + 1 < S2x1x160x160x160.size a then fa (Spec.fld x) (up a i h) - fa (Spec.fld x) i else 0 := by
  by_cases h : (i a).val + 1 < S2x1x160x160x160.size a
  · have hk : ∀ c, (i c).val < sz c := fun c => by
      have : (i c).val + o1 c < sz c + o1 c := by
        rw [(H c).2.2.2.2, (H c).2.2.2.1]; exact (up a i h c).isLt
      omega
    rw [dif_pos h, pad_apply_of_inside (s := ⟨5, sz⟩) lo hi it _ v hp h_S_ i (fun c => ⟨(i c).val, hk c⟩) fun c => by
      show (i c).val = lo c + (i c).val * (it c + 1)
      rw [(H c).1, (H c).2.1]; omega, ← fa_fld, ← fa_fld]
    exact congrArg₂ (· - ·)
      (extractStridedSlice_apply o1 x h1 _ _ fun c => by
        show (i c).val + _ = o1 c + (i c).val
        rw [(H c).2.2.2.1]; exact Nat.add_comm _ _)
      (extractStridedSlice_apply o0 x h0 _ _ fun c => by
        show (i c).val = o0 c + (i c).val
        rw [(H c).2.2.1]; exact (Nat.zero_add _).symm)
  · rw [dif_neg h, pad_apply_of_not_inside (s := ⟨5, sz⟩) lo hi it _ v hp h_S_ i a fun hin => h (by
      obtain ⟨e1, e2, _, e4, e5⟩ := H a
      have h3 : ((i a).val - lo a) / (it a + 1) < sz a := hin.2.2
      rw [e1, e2, Nat.sub_zero, Nat.zero_add, Nat.div_one] at h3
      rw [e4, if_pos rfl] at e5; omega)]
    exact hv

theorem v3_apply (x : Arr) (i : S2x1x160x160x160.Idx) : val_main_v3 (F := Ideal) x i = fa (Spec.gradD (Spec.fld x)) i :=
  fwd_apply 2 padv_zero (by decide) x i
theorem v7_apply (x : Arr) (i : S2x1x160x160x160.Idx) : val_main_v7 (F := Ideal) x i = fa (Spec.gradH (Spec.fld x)) i :=
  fwd_apply 3 padv_zero (by decide) x i
theorem v11_apply (x : Arr) (i : S2x1x160x160x160.Idx) : val_main_v11 (F := Ideal) x i = fa (Spec.gradW (Spec.fld x)) i :=
  fwd_apply 4 padv_zero (by decide) x i

-- two such indices agree once they agree off the one-entry axis
theorem ext4 {j j' : S2x1x160x160.Idx} (h0 : j 0 = j' 0) (h2 : j 2 = j' 2) (h3 : j 3 = j' 3) : j = j' :=
  funext fun c => by fin_cases c <;> first | assumption | exact @Subsingleton.elim (Fin 1) _ _ _

def idx4Equiv : S2x1x160x160.Idx ≃ Fin 2 × Fin 160 × Fin 160 where
  toFun j := (j 0, j 2, j 3)
  invFun p := ix4 p.1 (0 : Fin 1) p.2.1 p.2.2
  left_inv _ := ext4 rfl rfl rfl
  right_inv _ := rfl

-- so a sum over them is the triple sum over the three free coordinates
theorem sum_idx4 (f : S2x1x160x160.Idx → EReal) : ∑ j, f j = ∑ b, ∑ p, ∑ q, f (ix4 b (0 : Fin 1) p q) := by
  rw [← Equiv.sum_comp idx4Equiv.symm f, Fintype.sum_prod_type]
  exact Finset.sum_congr rfl fun b _ => Fintype.sum_prod_type _

section Line
variable {U : Shape} {a : Fin 5} {d1 : Fin 4 → Fin U.rank} {d2 : Fin U.rank → Fin 5} {d0 : Fin 0 → Fin U.rank}
  {ax : List (Fin 4)} (red : S2x1x160x160x160.ReducesTo [a] S2x1x160x160) (b1 : S2x1x160x160.BroadcastsInDim U d1)
  (b0 : S_.BroadcastsInDim U d0) (b2 : U.BroadcastsInDim S2x1x160x160x160 d2) (rt : S2x1x160x160.ReducesTo ax S_)

abbrev Z : FVec Ideal S_ .f32 := constant S_ .f32 0x00000000#32

abbrev nrm (G : Arr) : Arr :=
  Host.divf G (broadcastInDim S2x1x160x160x160 d2 b2 (maximumf (Host.sqrt (broadcastInDim U d1 b1
    (Host.reduceAdd (mulf G G) Z red h_S_))) (broadcastInDim U d0 b0 (constant (F := Ideal) S_ .f32 0x2B8CBCCC#32))))

variable {red b1 b0 b2 rt}

-- summed over all lines along axis `a`: the cosine of the two lines
theorem line_apply (rd : S2x1x160x160x160.Reduces [a] S2x1x160x160)
    (H : ∀ j k, broadcastInDim S2x1x160x160x160 d2 b2 (broadcastInDim U d1 b1 id) (rd.lift j k) = j)
    {G G' : Arr} {F T : Spec.Field} (hG : ∀ i, G i = fa F i) (hG' : ∀ i, G' i = fa T i) (i : S_.Idx) :
    Host.reduceAdd (Host.reduceAdd (mulf (nrm red b1 b0 b2 G) (nrm red b1 b0 b2 G')) Z red h_S_) Z rt h_S_ i
      = ∑ b, ∑ p, ∑ q, Spec.cosR (fun k => fa F (rd.lift (ix4 b (0 : Fin 1) p q) k))
          (fun k => fa T (rd.lift (ix4 b (0 : Fin 1) p q) k)) := by
  obtain rfl := funext hG
  obtain rfl := funext hG'
  have hZ : Z (Shape.Idx.first h_S_) = 0 := Ideal.ofBits_zero_f32
  have hn : ∀ (G : Arr) j k, nrm red b1 b0 b2 G (rd.lift j k)
      = Ideal.div (G (rd.lift j k)) (max (Ideal.sqrt (∑ k', G (rd.lift j k') * G (rd.lift j k'))) Spec.eps) :=
    fun G j k => congrArg (fun t => Ideal.div _ (max (Ideal.sqrt t) _)) ((congrArg (Host.reduceAdd (mulf G G) Z red h_S_) (H j k)).trans
      ((Ideal.hostReduceAdd_single red rd _ _ j).trans (by rw [hZ, zero_add]; rfl)))
  refine (Ideal.hostReduceAdd_total rt (fun b => b.elim0) _ _ i).trans ?_
  rw [hZ, zero_add, sum_idx4]
  refine Finset.sum_congr rfl fun b _ => Finset.sum_congr rfl fun p _ => Finset.sum_congr rfl fun q _ =>
    (Ideal.hostReduceAdd_single red rd _ _ _).trans ?_
  rw [hZ, zero_add]
  exact Finset.sum_congr rfl fun k _ => congrArg₂ (· * ·) (hn _ _ k) (hn _ _ k)

end Line

-- the loss combines the six sums
theorem ref_value (x0 x1 : (⟨S2x1x160x160x160, .f32⟩ : BufTy).Contents (Elt Ideal)) :
    Cert.ReferenceIdeal.ReadP.val_main_v116 (F := Ideal) x0 x1
      = fun _ => Cert.Spec.lossR (Cert.Spec.fld x0) (Cert.Spec.fld x1) :=
  funext fun i => congr (congr (congr (congr (congr (congrArg Spec.combine
    (line_apply (by decide) (fun _ _ => ext4 rfl rfl rfl) (v3_apply x0) (v3_apply x1) i))
    (line_apply (by decide) (fun _ _ => ext4 rfl rfl rfl) (v3_apply x0) (v3_apply x1) i))
    (line_apply (by decide) (fun _ _ => ext4 rfl rfl rfl) (v7_apply x0) (v7_apply x1) i))
    (line_apply (by decide) (fun _ _ => ext4 rfl rfl rfl) (v7_apply x0) (v7_apply x1) i))
    (line_apply (by decide) (fun _ _ => ext4 rfl rfl rfl) (v11_apply x0) (v11_apply x1) i))
    (line_apply (by decide) (fun _ _ => ext4 rfl rfl rfl) (v11_apply x0) (v11_apply x1) i)

end Cert.ReferenceIdeal.RefValue

end
-- ==== Proof.Bridge.lean ====
import proofs.«415577_j83279415869695_3_alg».proof.Proof.Spec
import Mathlib.Analysis.Real.Sqrt
import Mathlib.Data.EReal.Inv
import Mathlib.Algebra.BigOperators.Group.Finset.Basic

noncomputable section

namespace Cert.Spec

open Idealize.ShloMosaic

def epsR : ℝ := (2305843 : ℝ) / 2 ^ 61

theorem epsR_pos : 0 < epsR := by unfold epsR; positivity

theorem eps_eq : eps = (((2305843 : ℝ) / 2 ^ 61 : ℝ) : EReal) := by
  unfold eps
  simp [Ideal.ofBits, Ideal.ieee, -EReal.coe_mul]
  norm_num

theorem eps_eq_epsR : eps = (epsR : EReal) := eps_eq

theorem epsSq_eq : epsSq = eps * eps := by
  rw [eps_eq, ← EReal.coe_mul]
  unfold epsSq
  congr 1
  norm_num

theorem epsSq_eq_epsR : epsSq = ((epsR * epsR : ℝ) : EReal) := by
  rw [epsSq_eq, eps_eq_epsR, EReal.coe_mul]

theorem coe_sum {K : Type} (s : Finset K) (g : K → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem sqrt_max_sq (s e : ℝ) (he : 0 ≤ e) : Real.sqrt (max s (e * e)) = max (Real.sqrt s) e := by
  rw [Real.sqrt_monotone.map_max, Real.sqrt_mul_self he]

theorem rs_coe (s : ℝ) : rs (s : EReal) = (((max (Real.sqrt s) epsR)⁻¹ : ℝ) : EReal) := by
  have hpos : 0 < max s (epsR * epsR) := lt_max_of_lt_right (mul_pos epsR_pos epsR_pos)
  unfold rs
  rw [epsSq_eq_epsR, coe_max, Ideal.rsqrt_coe, if_neg (not_lt.2 hpos.le), if_neg hpos.ne',
    sqrt_max_sq s epsR epsR_pos.le]

theorem div_clamp_coe (a s : ℝ) (hs : 0 ≤ s) :
    Ideal.div (a : EReal) (max (Ideal.sqrt (s : EReal)) eps) = ((a * (max (Real.sqrt s) epsR)⁻¹ : ℝ) : EReal) := by
  have hne : max (Real.sqrt s) epsR ≠ 0 := (lt_max_of_lt_right epsR_pos).ne'
  rw [Ideal.sqrt_coe, if_neg (not_lt.2 hs), eps_eq_epsR, coe_max, Ideal.div_coe hne, one_div, ← EReal.coe_mul]

theorem cosK_eq_cosR {K : Type} [Fintype K] (f t : K → EReal) (hf : ∀ k, ∃ r : ℝ, f k = (r : EReal))
    (ht : ∀ k, ∃ r : ℝ, t k = (r : EReal)) : cosK f t = cosR f t := by
  choose a ha using hf
  choose b hb using ht
  obtain rfl : f = fun k => (a k : EReal) := funext ha
  obtain rfl : t = fun k => (b k : EReal) := funext hb
  have hA : 0 ≤ ∑ k, a k * a k := Finset.sum_nonneg fun k _ => mul_self_nonneg (a k)
  have hB : 0 ≤ ∑ k, b k * b k := Finset.sum_nonneg fun k _ => mul_self_nonneg (b k)
  unfold cosK cosR
  simp only [← EReal.coe_mul, coe_sum, rs_coe, div_clamp_coe _ _ hA, div_clamp_coe _ _ hB]
  rw [EReal.coe_eq_coe_iff, Finset.sum_mul, Finset.sum_mul]
  exact Finset.sum_congr rfl fun k _ => by ring

theorem gradD_finite {X : Field} (hX : Finite X) : Finite (gradD X) := by
  intro b d h w
  unfold gradD
  split_ifs with hd
  · obtain ⟨r1, h1⟩ := hX b ⟨d.val + 1, hd⟩ h w
    obtain ⟨r2, h2⟩ := hX b d h w
    exact ⟨r1 - r2, by rw [h1, h2, EReal.coe_sub]⟩
  · exact ⟨0, EReal.coe_zero.symm⟩

theorem gradH_finite {X : Field} (hX : Finite X) : Finite (gradH X) := by
  intro b d h w
  unfold gradH
  split_ifs with hh
  · obtain ⟨r1, h1⟩ := hX b d ⟨h.val + 1, hh⟩ w
    obtain ⟨r2, h2⟩ := hX b d h w
    exact ⟨r1 - r2, by rw [h1, h2, EReal.coe_sub]⟩
  · exact ⟨0, EReal.coe_zero.symm⟩

theorem gradW_finite {X : Field} (hX : Finite X) : Finite (gradW X) := by
  intro b d h w
  unfold gradW
  split_ifs with hw
  · obtain ⟨r1, h1⟩ := hX b d h ⟨w.val + 1, hw⟩
    obtain ⟨r2, h2⟩ := hX b d h w
    exact ⟨r1 - r2, by rw [h1, h2, EReal.coe_sub]⟩
  · exact ⟨0, EReal.coe_zero.symm⟩

theorem sumW_K_eq_R {F T : Field} (hF : Finite F) (hT : Finite T) : sumW_K F T = sumW_R F T :=
  Finset.sum_congr rfl fun b _ => Finset.sum_congr rfl fun d _ => Finset.sum_congr rfl fun h _ =>
    cosK_eq_cosR _ _ (fun w => hF b d h w) (fun w => hT b d h w)

theorem sumH_K_eq_R {F T : Field} (hF : Finite F) (hT : Finite T) : sumH_K F T = sumH_R F T :=
  Finset.sum_congr rfl fun b _ => Finset.sum_congr rfl fun d _ => Finset.sum_congr rfl fun w _ =>
    cosK_eq_cosR _ _ (fun h => hF b d h w) (fun h => hT b d h w)

theorem sumD_K_eq_R {F T : Field} (hF : Finite F) (hT : Finite T) : sumD_K F T = sumD_R F T :=
  Finset.sum_congr rfl fun b _ => Finset.sum_congr rfl fun h _ => Finset.sum_congr rfl fun w _ =>
    cosK_eq_cosR _ _ (fun d => hF b d h w) (fun d => hT b d h w)

theorem lossK_eq_lossR (X Y : Field) (hX : Finite X) (hY : Finite Y) : lossK X Y = lossR X Y := by
  unfold lossK lossR
  rw [sumW_K_eq_R (gradD_finite hX) (gradD_finite hY), sumH_K_eq_R (gradD_finite hX) (gradD_finite hY),
    sumW_K_eq_R (gradH_finite hX) (gradH_finite hY), sumD_K_eq_R (gradH_finite hX) (gradH_finite hY),
    sumH_K_eq_R (gradW_finite hX) (gradW_finite hY), sumD_K_eq_R (gradW_finite hX) (gradW_finite hY)]

end Cert.Spec

end
-- ==== Proof.PreFinite.lean ====
import proofs.«415577_j83279415869695_3_alg».proof.Defs
import proofs.«415577_j83279415869695_3_alg».proof.Proof.Spec
import Idealize.ShloMosaic.Lib.ReduceAll

noncomputable section

namespace Cert.Proof.PreFinite

open Idealize.ShloMosaic

theorem ofBits_inf : Ideal.ofBits .f32 0x7F800000#32 = ⊤ := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

instance : Subsingleton Cert.Pre_finite_inputs.S_.Idx := ⟨fun _ _ => funext fun d => d.elim0⟩

theorem finite_of_pre [Cert.Pre_finite_inputs.Facts]
    (x0 x1 : FVec Ideal Cert.Pre_finite_inputs.S2x1x160x160x160 .f32)
    (h : Cert.Pre_finite_inputs.fn (F := Ideal) x0 x1 = fun _ => 1#1) :
    Cert.Spec.Finite (Cert.Spec.fld x0) ∧ Cert.Spec.Finite (Cert.Spec.fld x1) := by
  have h0 := congrFun h ValueIdx.ix0
  dsimp only [Cert.Pre_finite_inputs.fn] at h0
  obtain ⟨h1, h2⟩ := IntOp.andi_eq_one.1 h0
  have e0 : ∀ i, ∃ r : ℝ, x0 i = (r : EReal) := fun i =>
    real_of_abs_lt_inf (x0 i) (Host.reduce_andi_all _ _ _ _ _ h1 i)
  have e1 : ∀ i, ∃ r : ℝ, x1 i = (r : EReal) := fun i =>
    real_of_abs_lt_inf (x1 i) (Host.reduce_andi_all _ _ _ _ _ h2 i)
  exact ⟨fun _ _ _ _ => e0 _, fun _ _ _ _ => e1 _⟩

end Cert.Proof.PreFinite

end
-- ==== Proof.Preserves.lean ====
import proofs.«415577_j83279415869695_3_alg».proof.Defs

noncomputable section

namespace Cert.Proof.Preserves

open Idealize.ShloMosaic

theorem one : IdealRules.named_const.Statement Cert.KernelIdeal.κ "eps_sq" .f32 0x179ABE15#32
    ((5316911940649 / 5316911983139663491615228241121378304 : ℝ) : EReal) :=
  IdealRules.named_const.statement Cert.KernelIdeal.κ "eps_sq" .f32 0x179ABE15#32
    ((5316911940649 / 5316911983139663491615228241121378304 : ℝ) : EReal) rfl

theorem preserves : Cert.preserves_Kernel_KernelIdeal :=
  ⟨one, one, one, one, one, one, one, one, one, one, one, one, one, one, one, one⟩

end Cert.Proof.Preserves

end
-- ==== Proof.lean ====
/-
  Both programs compute one function of two finite volumes: along each axis the forward differences, for every line of a
  difference field the cosine of the two volumes' lines with norms clamped from below, the six sums of cosines averaged,
  negated and added. The kernel clamps squared norms at the square of the reference's clamp and sums depth tile by tile.
-/
import proofs.«415577_j83279415869695_3_alg».proof.Defs
import proofs.«415577_j83279415869695_3_alg».proof.Proof.Gen.Kernel
import proofs.«415577_j83279415869695_3_alg».proof.Proof.Gen.KernelIdeal
import proofs.«415577_j83279415869695_3_alg».proof.Proof.Gen.ReferenceIdeal
import proofs.«415577_j83279415869695_3_alg».proof.Proof.Gen.Pre_finite_inputs
import proofs.«415577_j83279415869695_3_alg».proof.Proof.K.RunMain
import proofs.«415577_j83279415869695_3_alg».proof.Proof.KI.RunMain
import proofs.«415577_j83279415869695_3_alg».proof.Proof.KI.Tail
import proofs.«415577_j83279415869695_3_alg».proof.Proof.KI.Value
import proofs.«415577_j83279415869695_3_alg».proof.Proof.Ref.Run
import proofs.«415577_j83279415869695_3_alg».proof.Proof.Ref.Value
import proofs.«415577_j83279415869695_3_alg».proof.Proof.Bridge
import proofs.«415577_j83279415869695_3_alg».proof.Proof.PreFinite
import proofs.«415577_j83279415869695_3_alg».proof.Proof.Preserves
import Idealize.ShloMosaic.Adequacy
import Idealize.ShloMosaic.Init

noncomputable section

namespace Cert.Proof

open Idealize.ShloMosaic Idealize.SL.Sem

theorem frame_k : Cert.frame_Kernel := fun m ρ _ =>
  (θ_run (Cert.Kernel.defs (F := Bits)) _ _).mono (fun _ h c => ⟨(h c).1, (h c).2.1⟩) (Cert.Kernel.Frm.run_main (F := Bits) m ρ)

theorem frame_ki : Cert.frame_KernelIdeal := fun m ρ _ =>
  (θ_run (Cert.KernelIdeal.defs (F := Ideal)) _ _).mono (fun _ h c => ⟨(h c).1, (h c).2.1⟩) (Cert.KernelIdeal.Frm.run_main (F := Ideal) m ρ)

theorem frame_ri : Cert.frame_ReferenceIdeal := fun m ρ _ =>
  (θ_run (Cert.ReferenceIdeal.defs (F := Ideal)) _ _).mono (fun _ h c => (h c).2) (Cert.ReferenceIdeal.ValueP.run (F := Ideal) m ρ)

-- The reference's result term is the last stage of its operations read one at a time.
theorem ref_stage (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v116 m c
      = Cert.ReferenceIdeal.ReadP.val_main_v116 (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) := rfl

-- Both runs end at the loss of the two volumes; the two forms of it agree on finite volumes.
theorem algebraic : Cert.algebraic_KernelIdeal_ReferenceIdeal := by
  intro m ρ m' ρ' hpre hagree
  refine ⟨fun c => fun _ => Cert.Spec.lossK
      (Cert.Spec.fld (m ((c.tc : Thread Cert.KernelIdeal.nD Cert.KernelIdeal.τ).loc Cert.KernelIdeal.main_arg0)))
      (Cert.Spec.fld (m ((c.tc : Thread Cert.KernelIdeal.nD Cert.KernelIdeal.τ).loc Cert.KernelIdeal.main_arg1))), ?_, ?_⟩
  · refine (θ_run (Cert.KernelIdeal.defs (F := Ideal)) _ _).mono (fun _ h c => ⟨(h c).2.2.trans ?_, (h c).1, (h c).2.1⟩)
      (Cert.KernelIdeal.Frm.run_main (F := Ideal) m ρ)
    exact (Cert.KernelIdeal.Frm.hostTail_eq m c _).trans (Cert.KernelIdeal.Val.kernel_value m c)
  · refine (θ_run (Cert.ReferenceIdeal.defs (F := Ideal)) _ _).mono (fun _ h c => ⟨(h c).1.trans ?_, (h c).2.1, (h c).2.2⟩)
      (Cert.ReferenceIdeal.ValueP.run (F := Ideal) m' ρ')
    obtain ⟨hX, hY⟩ := Cert.Proof.PreFinite.finite_of_pre _ _ (hpre c)
    rw [ref_stage, (hagree c).1, (hagree c).2, Cert.ReferenceIdeal.RefValue.ref_value]
    funext _
    exact (Cert.Spec.lossK_eq_lossR _ _ hX hY).symm

theorem claim : Cert.Claim :=
  ⟨Cert.Kernel.Gen.facts, Cert.KernelIdeal.Gen.facts, Cert.ReferenceIdeal.Gen.facts, Cert.Pre_finite_inputs.Gen.facts,
    frame_k, frame_ki, frame_ri, Cert.Proof.Preserves.preserves, algebraic⟩

end Cert.Proof

end
